-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  main_v18

def fn {F : FTy → Type} [FloatOps F] (main_arg0 : FVec F S50000x128 .f32) (main_arg1 : IVec S2x600000 32) (main_arg2 : IVec S50000 32) (main_arg3 : FVec F S4x128x128 .f32) (main_arg4 : FVec F S4x128 .f32) (main_arg5 : FVec F S4x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x1 : Shape := ⟨2, ![64, 1]⟩

abbrev nBuf : Space → Nat
  | .hbm => 134
  | .vmem => 42
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128x128, .f32⟩
  | 6 => ⟨S1x600000, .i32⟩
  | 7 => ⟨S600000, .i32⟩
  | 8 => ⟨S1x600000, .i32⟩
  | 9 => ⟨S600000, .i32⟩
  | 10 => ⟨S_, .f32⟩
  | 11 => ⟨S600000, .f32⟩
  | 12 => ⟨S_, .f32⟩
  | 13 => ⟨S50000, .f32⟩
  | 14 => ⟨S600000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S4x128x128, .f32⟩
  | 24 => ⟨S4x128x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .f32⟩
  | 35 => ⟨S50000x128, .f32⟩
  | 36 => ⟨S600000x1, .i32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S1x128x128, .f32⟩
  | 43 => ⟨S128x128, .f32⟩
  | 44 => ⟨S1x128, .f32⟩
  | 45 => ⟨S128, .f32⟩
  | 46 => ⟨S1x128, .f32⟩
  | 47 => ⟨S50000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S50000x128, .f32⟩
  | 82 => ⟨S600000x1, .i32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S50000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S_, .f32⟩
  | 104 => ⟨S50000x128, .f32⟩
  | 105 => ⟨S600000x1, .i32⟩
  | 106 => ⟨S50000x128, .f32⟩
  | 107 => ⟨S50000x128, .f32⟩
  | 108 => ⟨S50000x128, .f32⟩
  | 109 => ⟨S1x128x128, .f32⟩
  | 110 => ⟨S128x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S50000x128, .f32⟩
  | 117 => ⟨S64, .i32⟩
  | 118 => ⟨S50000x1, .i32⟩
  | 119 => ⟨S1x64, .i32⟩
  | 120 => ⟨S50000x64, .i32⟩
  | 121 => ⟨S50000x64, .i32⟩
  | 122 => ⟨S50000x64, .i1⟩
  | 123 => ⟨S50000x64, .bf16⟩
  | 124 => ⟨S50000x64, .f32⟩
  | 125 => ⟨S_, .f32⟩
  | 126 => ⟨S64, .f32⟩
  | 127 => ⟨S64x128, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x64, .bf16⟩
  | .local _ .vmem, ⟨39, _⟩ => ⟨S5000x64, .bf16⟩
  | .local _ .vmem, ⟨40, _⟩ => ⟨S64x128, .f32⟩
  | .local _ .vmem, ⟨41, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_8 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_11 : Ref sig .tc := ⟨.hbm, 94, rfl⟩
abbrev main_v75 : Ref sig .tc := ⟨.hbm, 95, rfl⟩
abbrev main_v76 : Ref sig .tc := ⟨.hbm, 96, rfl⟩
abbrev main_c_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_14 : Ref sig .tc := ⟨.hbm, 125, rfl⟩
abbrev main_v103 : Ref sig .tc := ⟨.hbm, 126, rfl⟩
abbrev main_v104 : Ref sig .tc := ⟨.hbm, 127, rfl⟩
abbrev main_cst_15 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  transposes_S4x128x128_S4x128x128_0_2_1 : S4x128x128.Transposes [0, 2, 1] S4x128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .bf16 = 32 ∨ (Rect.block (s := S50000x64) S5000x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v94) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S64x1 : Shape := ⟨2, ![64, 1]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128x128, .f32⟩
  | 6 => ⟨S1x600000, .i32⟩
  | 7 => ⟨S600000, .i32⟩
  | 8 => ⟨S1x600000, .i32⟩
  | 9 => ⟨S600000, .i32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S_, .f32⟩
  | 20 => ⟨S50000x128, .f32⟩
  | 21 => ⟨S600000x1, .i32⟩
  | 22 => ⟨S50000x128, .f32⟩
  | 23 => ⟨S_, .f32⟩
  | 24 => ⟨S600000, .f32⟩
  | 25 => ⟨S_, .f32⟩
  | 26 => ⟨S50000, .f32⟩
  | 27 => ⟨S600000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S1x128x128, .f32⟩
  | 36 => ⟨S128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128x128, .f32⟩
  | 45 => ⟨S128x128, .f32⟩
  | 46 => ⟨S128x128, .f32⟩
  | 47 => ⟨S50000x128, .f32⟩
  | 48 => ⟨S50000x128, .f32⟩
  | 49 => ⟨S_, .f32⟩
  | 50 => ⟨S50000x128, .f32⟩
  | 51 => ⟨S50000x128, .i1⟩
  | 52 => ⟨S_, .f32⟩
  | 53 => ⟨S50000x128, .f32⟩
  | 54 => ⟨S50000x128, .f32⟩
  | 55 => ⟨S50000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S_, .f32⟩
  | 70 => ⟨S600000, .f32⟩
  | 71 => ⟨S_, .f32⟩
  | 72 => ⟨S50000, .f32⟩
  | 73 => ⟨S600000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S1x128x128, .f32⟩
  | 82 => ⟨S128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128x128, .f32⟩
  | 91 => ⟨S128x128, .f32⟩
  | 92 => ⟨S128x128, .f32⟩
  | 93 => ⟨S50000x128, .f32⟩
  | 94 => ⟨S50000x128, .f32⟩
  | 95 => ⟨S_, .f32⟩
  | 96 => ⟨S50000x128, .f32⟩
  | 97 => ⟨S50000x128, .i1⟩
  | 98 => ⟨S_, .f32⟩
  | 99 => ⟨S50000x128, .f32⟩
  | 100 => ⟨S50000x128, .f32⟩
  | 101 => ⟨S50000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S_, .f32⟩
  | 116 => ⟨S600000, .f32⟩
  | 117 => ⟨S_, .f32⟩
  | 118 => ⟨S50000, .f32⟩
  | 119 => ⟨S600000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128x128, .f32⟩
  | 9 => ⟨S128x128, .f32⟩
  | 10 => ⟨S128x128, .f32⟩
  | 11 => ⟨S50000x128, .f32⟩
  | 12 => ⟨S50000x128, .f32⟩
  | 13 => ⟨S_, .f32⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x128, .f32⟩
  | 20 => ⟨S50000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S_, .f32⟩
  | 35 => ⟨S600000, .f32⟩
  | 36 => ⟨S_, .f32⟩
  | 37 => ⟨S50000, .f32⟩
  | 38 => ⟨S600000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S1x128x128, .f32⟩
  | 47 => ⟨S128x128, .f32⟩
  | 48 => ⟨S128x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S128x128, .f32⟩
  | 58 => ⟨S50000x128, .f32⟩
  | 59 => ⟨S50000x128, .f32⟩
  | 60 => ⟨S_, .f32⟩
  | 61 => ⟨S50000x128, .f32⟩
  | 62 => ⟨S50000x128, .i1⟩
  | 63 => ⟨S_, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S64x128, .f32⟩
  | 70 => ⟨S50000x1, .i32⟩
  | 71 => ⟨S64x128, .f32⟩
  | 72 => ⟨S_, .f32⟩
  | 73 => ⟨S50000, .f32⟩
  | 74 => ⟨S_, .f32⟩
  | 75 => ⟨S64, .f32⟩
  | 76 => ⟨S50000x1, .i32⟩
  | 77 => ⟨S64, .f32⟩
  | 78 => ⟨S_, .f32⟩
  | 79 => ⟨S64, .f32⟩
  | 80 => ⟨S64, .f32⟩
  | 81 => ⟨S64x1, .f32⟩
  | 82 => ⟨S64x128, .f32⟩
  | 83 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_14 : Ref sig .tc := ⟨.hbm, 102, rfl⟩
abbrev main_v80 : Ref sig .tc := ⟨.hbm, 103, rfl⟩
abbrev main_v81 : Ref sig .tc := ⟨.hbm, 104, rfl⟩
abbrev main_c_15 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_16 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_cst_18 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_19 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_20 : Ref sig .tc := ⟨.hbm, 141, rfl⟩
abbrev main_v113 : Ref sig .tc := ⟨.hbm, 142, rfl⟩
abbrev main_v114 : Ref sig .tc := ⟨.hbm, 143, rfl⟩
abbrev main_cst_21 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_c_22 : Ref sig .tc := ⟨.hbm, 149, rfl⟩
abbrev main_v119 : Ref sig .tc := ⟨.hbm, 150, rfl⟩
abbrev main_v120 : Ref sig .tc := ⟨.hbm, 151, rfl⟩
abbrev main_c_23 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_24 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_25 : Ref sig .tc := ⟨.hbm, 162, rfl⟩
abbrev main_v129 : Ref sig .tc := ⟨.hbm, 163, rfl⟩
abbrev main_cst_26 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_27 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_28 : Ref sig .tc := ⟨.hbm, 188, rfl⟩
abbrev main_v152 : Ref sig .tc := ⟨.hbm, 189, rfl⟩
abbrev main_v153 : Ref sig .tc := ⟨.hbm, 190, rfl⟩
abbrev main_cst_29 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_30 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_31 : Ref sig .tc := ⟨.hbm, 200, rfl⟩
abbrev main_v161 : Ref sig .tc := ⟨.hbm, 201, rfl⟩
abbrev main_cst_32 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_cst_33 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KbAff0.lean ====
import proofs.«405071_j1614907703383_1_alg».proof.Proof.Gen.Kernel.Launch
import proofs.«405071_j1614907703383_1_alg».proof.Proof.Gen.Kernel.Skeleton
import proofs.«405071_j1614907703383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t` of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-- The output block as a function of the five input blocks: one whole store of the payload of five whole loads. -/
def out0_5 (x0 : Vec F S5000x128 .f32) (x1 : Vec F S5000x128 .f32) (x2 : Vec F S128x128 .f32) (x3 : Vec F S128x128 .f32) (x4 : Vec F S1x128 .f32) : Vec F S5000x128 .f32 :=
  View.canon [⟨r0_a, k0_pay1 (View.ld x0 r0_a) (View.ld x1 r0_a) (View.ld x2 r0_b) (View.ld x3 r0_b) (View.ld x4 r0_c)⟩]

set_option maxHeartbeats 1000000 in
theorem sound_kernel0 (c : Dev nD) (E : Set ℕ) (i : grid0.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__affine_kernel i arg0 harg0 arg1 harg1 arg2 harg2 arg3 harg3 arg4 harg4 arg5 harg5) K := by
  simp only [cc0__affine_kernel_eq_skeleton]; unfold cc0__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r0_a, _⟩] S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
    refine ((dat0 V c).before_in_eq_fetched _ rfl (fun _ => rfl) (fun _ _ _ => rfl) (fun t => ?_) t d).trans ?_ <;>
    ((try simp only [after0_0, after0_1, after0_2, after0_3, after0_4]); (try unfold Dat.fetched); unfold Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  unfold bodyPre0 bodyPost0 bodyAt0
  obtain ⟨h0, h1, h2, h3, h4⟩ := before0 V c t
  simp only [h0, h1, h2, h3, h4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region0

end Cert.Kernel.Hand

end
-- ==== Proof.KbAff1.lean ====
import proofs.«405071_j1614907703383_1_alg».proof.Proof.Gen.Kernel.Launch
import proofs.«405071_j1614907703383_1_alg».proof.Proof.Gen.Kernel.Skeleton
import proofs.«405071_j1614907703383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t` of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

/-- The output block as a function of the five input blocks: one whole store of the payload of five whole loads. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_a, k1_pay1 (View.ld x0 r1_a) (View.ld x1 r1_a) (View.ld x2 r1_b) (View.ld x3 r1_b) (View.ld x4 r1_c)⟩]

set_option maxHeartbeats 1000000 in
theorem sound_kernel1 (c : Dev nD) (E : Set ℕ) (i : grid1.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__affine_kernel i arg0 harg0 arg1 harg1 arg2 harg2 arg3 harg3 arg4 harg4 arg5 harg5) K := by
  simp only [cc1__affine_kernel_eq_skeleton]; unfold cc1__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r1_a, _⟩] S5000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) := by
  refine ⟨?_, ?_, ?_, ?_, ?_⟩ <;> intro d <;>
    refine ((dat1 V c).before_in_eq_fetched _ rfl (fun _ => rfl) (fun _ _ _ => rfl) (fun t => ?_) t d).trans ?_ <;>
    ((try simp only [after1_0, after1_1, after1_2, after1_3, after1_4]); (try unfold Dat.fetched); unfold Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1
  obtain ⟨h0, h1, h2, h3, h4⟩ := before1 V c t
  simp only [h0, h1, h2, h3, h4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region1

end Cert.Kernel.Hand

end
-- ==== Proof.KbAff2.lean ====
import proofs.«405071_j1614907703383_1_alg».proof.Proof.Gen.Kernel.Launch
import proofs.«405071_j1614907703383_1_alg».proof.Proof.Gen.Kernel.Skeleton
import proofs.«405071_j1614907703383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t` of the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

/-- The output block as a function of the five input blocks: one whole store of the payload of five whole loads. -/
def out2_5 (x0 : Vec F S5000x128 .f32) (x1 : Vec F S5000x128 .f32) (x2 : Vec F S128x128 .f32) (x3 : Vec F S128x128 .f32) (x4 : Vec F S1x128 .f32) : Vec F S5000x128 .f32 :=
  View.canon [⟨r2_a, k2_pay1 (View.ld x0 r2_a) (View.ld x1 r2_a) (View.ld x2 r2_b) (View.ld x3 r2_b) (View.ld x4 r2_c)⟩]

set_option maxHeartbeats 1000000 in
theorem sound_kernel2 (c : Dev nD) (E : Set ℕ) (i : grid2.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__affine_kernel i arg0 harg0 arg1 harg1 arg2 harg2 arg3 harg3 arg4 harg4 arg5 harg5) K := by
  simp only [cc2__affine_kernel_eq_skeleton]; unfold cc2__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r2_a, _⟩] S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> intro d <;>
    refine ((dat2 V c).before_in_eq_fetched _ rfl (fun _ => rfl) (fun _ _ _ => rfl) (fun t => ?_) t d).trans ?_ <;>
    ((try simp only [after2_0, after2_1, after2_2, after2_3, after2_4]); (try unfold Dat.fetched); unfold Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem body_obligation2 (c : Dev nD) : BodyObligation (dat2 (F := F) V c) (defs₀ (F := F)) Variants.none () Set.univ := fun t => by
  rw [bigSep_W2, bigSep_W2]
  show bodyPre2 V c t ⊢ wp frame (wpE (defs₀ (F := F)) Variants.none c none) Set.univ (bodyAt2 t) (fun _ => bodyPost2 V c t)
  unfold bodyPre2 bodyPost2 bodyAt2
  obtain ⟨h0, h1, h2, h3, h4⟩ := before2 V c t
  simp only [h0, h1, h2, h3, h4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region2

end Cert.Kernel.Hand

end
-- ==== Proof.KbAff3.lean ====
import proofs.«405071_j1614907703383_1_alg».proof.Proof.Gen.Kernel.Launch
import proofs.«405071_j1614907703383_1_alg».proof.Proof.Gen.Kernel.Skeleton
import proofs.«405071_j1614907703383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t` of the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

/-- The output block as a function of the five input blocks: one whole store of the payload of five whole loads. -/
def out3_5 (x0 : Vec F S5000x128 .f32) (x1 : Vec F S5000x128 .f32) (x2 : Vec F S128x128 .f32) (x3 : Vec F S128x128 .f32) (x4 : Vec F S1x128 .f32) : Vec F S5000x128 .f32 :=
  View.canon [⟨r3_a, k3_pay1 (View.ld x0 r3_a) (View.ld x1 r3_a) (View.ld x2 r3_b) (View.ld x3 r3_b) (View.ld x4 r3_c)⟩]

set_option maxHeartbeats 1000000 in
theorem sound_kernel3 (c : Dev nD) (E : Set ℕ) (i : grid3.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__affine_kernel i arg0 harg0 arg1 harg1 arg2 harg2 arg3 harg3 arg4 harg4 arg5 harg5) K := by
  simp only [cc3__affine_kernel_eq_skeleton]; unfold cc3__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r3_a, _⟩] S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;> intro d <;>
    refine ((dat3 V c).before_in_eq_fetched _ rfl (fun _ => rfl) (fun _ _ _ => rfl) (fun t => ?_) t d).trans ?_ <;>
    ((try simp only [after3_0, after3_1, after3_2, after3_3, after3_4]); (try unfold Dat.fetched); unfold Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem body_obligation3 (c : Dev nD) : BodyObligation (dat3 (F := F) V c) (defs₀ (F := F)) Variants.none () Set.univ := fun t => by
  rw [bigSep_W3, bigSep_W3]
  show bodyPre3 V c t ⊢ wp frame (wpE (defs₀ (F := F)) Variants.none c none) Set.univ (bodyAt3 t) (fun _ => bodyPost3 V c t)
  unfold bodyPre3 bodyPost3 bodyAt3
  obtain ⟨h0, h1, h2, h3, h4⟩ := before3 V c t
  simp only [h0, h1, h2, h3, h4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region3

end Cert.Kernel.Hand

end
-- ==== Proof.KbPool.lean ====
import proofs.«405071_j1614907703383_1_alg».proof.Proof.Gen.Kernel.Launch
import proofs.«405071_j1614907703383_1_alg».proof.Proof.Gen.Kernel.Skeleton
import proofs.«405071_j1614907703383_1_alg».proof.Proof.Gen.Kernel.Points
import proofs.«405071_j1614907703383_1_alg».proof.Proof.Gen.Kernel.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

abbrev scM4 : Memref sig .tc .vmem S64x128 .f32 := Memref.whole cc4_scratch0

theorem off00 : (![0, 0] : Fin 2 → ℕ) = fun _ => 0 := by
  funext a; fin_cases a <;> rfl

theorem read_write4 {κ : Kind} {sp : Space} (v : View sig κ sp S64x128 .f32) (f : v.ty.Contents (Elt F))
    (w : S64x128.Idx → Elt F .f32) :
    v.read (Elt F) (v.writes (Elt F) f [⟨Rect.unit ![0, 0] S64x128.size inb_S64x128_S64x128_0_0, w⟩]) = w := by
  rw [View.read_writes_eq_canon _ _ _ (fun y => ⟨_, List.mem_cons_self, View.mem_set_unit_zero off00 inb_S64x128_S64x128_0_0 y⟩),
    View.canon_unit_zero off00]

/-- One pooling step at any point: the running sum, taken as zero under the first condition, plus the block's product. -/
theorem run4 (c : Dev nD) (i : grid4.Coords) (arg1 : Memref sig .tc .vmem S5000x128 .f32) (harg1 : arg1.IsWhole)
    (arg2 : Memref sig .tc .vmem S5000x64 .bf16) (harg2 : arg2.IsWhole) (arg3 : Memref sig .tc .vmem S64x128 .f32) (harg3 : arg3.IsWhole)
    (arg4 : Memref sig .tc .vmem S64x128 .f32) (harg4 : arg4.IsWhole)
    (x0 : Vec F S5000x128 .f32) (x1 : Vec F S5000x64 .bf16) (xs d3 R : Vec F S64x128 .f32)
    (hR : R = k4_pay2 x0 x1 (if cond4_0 i then k4_pay1 else xs)) (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare xs
        ∗ (iprop(owns (c : Thread nD τ) arg1 fullShare x0 ∗ owns (c : Thread nD τ) arg2 fullShare x1
            ∗ owns (c : Thread nD τ) arg3 fullShare (if cond4_1 i then R else d3) ∗ owns (c : Thread nD τ) arg4 fullShare R) -∗ K ⟨⟩))
      ⊢ wp frame (wpE (defs₀ (F := F)) Variants.none c none) E (cc4__pool_kernel i arg1 harg1 arg2 harg2 arg3 harg3 arg4 harg4) K := by
  subst hR
  simp only [cc4__pool_kernel_eq_skeleton]; unfold cc4__pool_kernel_skel
  unfold owns
  iintro ⟨⟨%f0, %hf0, H0⟩, ⟨%f1, %hf1, H1⟩, ⟨%f3, %hf3, H3⟩, ⟨%fs, %hfs, HS⟩, Hk⟩
  sl_exec
  sl_step
  have hv : run4.sl.v8 c i arg4 fs = if cond4_0 i then k4_pay1 else xs := by
    unfold run4.sl.v8 run4.sl.v2 run4.sl.v1 run4.sl.v0
    rw [View.readAt_eq_ld, View.ld_unit_zero off00]
    by_cases h : cond4_0 i
    · rw [dif_pos h, if_pos h, read_write4]
    · rw [dif_neg h, if_neg h, hfs]
  iapply Hk
  isplitl [H0]
  · iexists _; isplitr; · ipureintro; exact hf0
    iexact H0
  isplitl [H1]
  · iexists _; isplitr; · ipureintro; exact hf1
    iexact H1
  isplitl [H3]
  · iexists _; isplitr
    swap; · iexact H3
    ipureintro
    by_cases h : cond4_1 i
    · rw [dif_pos h, if_pos h, read_write4]
      unfold run4.sl.v17 run4.sl.HS_1
      rw [View.readCov_unit_zero _ off00]
      simp only [View.readAt_eq_ld, hf0, hf1, hv]
      rw [View.ld_unit_zero off00, View.ld_unit_zero off00]
    · rw [dif_neg h, if_neg h, hf3]
  iexists _; isplitr
  swap; · iexact HS
  ipureintro
  unfold run4.sl.HS_1
  rw [read_write4]
  simp only [View.readAt_eq_ld, hf0, hf1, hv]
  rw [View.ld_unit_zero off00, View.ld_unit_zero off00]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : ℕ → Vec F S64x128 .f32
  | 0 => k4_pay1
  | n + 1 =>
    if hn : n < cfg4.N then
      k4_pay2 (iblk4 V c 0 ⟨n, hn⟩) (iblk4 V c 1 ⟨n, hn⟩) (if n = 0 then k4_pay1 else acc4 c n)
    else acc4 c n

/-- Each point adds its block's product to the sum of the points before it. -/
theorem acc4_succ (c : Dev nD) (t : Fin cfg4.N) :
    acc4 V c (t.val + 1) = k4_pay2 (iblk4 V c 0 t) (iblk4 V c 1 t) (acc4 V c t.val) := by
  rw [acc4, dif_pos t.isLt]; congr 1
  generalize t.val = n; cases n <;> rfl

def Rest4 (c : Dev nD) : sProp 𝕄 :=
  iprop(Pipeline.scopedRestBut (Ix := Unit) (Name := ℕ) (U := UR sig nD τ) (Lvl := ℕ) (Val := Elt F) spec4 c [cc4_scratch0] ∗ ∃ r, prngReg c r)

/-- Before position `n` the running sum is `acc4 n`, except that before the first point nothing is known of it. -/
def Phi4 (c : Dev nD) (n : ℕ) : sProp 𝕄 :=
  iprop((∃ d, ⌜n ≠ 0 → d = acc4 V c n⌝ ∗ owns (c : Thread nD τ) scM4 fullShare d) ∗ Rest4 c)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c (t.val + 1)
  Φ t := Phi4 V c t.val
  q _ := fullShare
  owed _ := 0

theorem A_eq4 (c : Dev nD) (w : Fin cfg4.W) : (dat4 V c).A w = V c (Pipeline.arrRef spec4 w) := rfl

theorem after4_2_last (c : Dev nD) (t : Fin cfg4.N) (ht : t.val = 9) : (dat4 V c).after 2 t = acc4 V c 10 := by
  rw [show (dat4 V c).after 2 t = acc4 V c (t.val + 1) from rfl, ht]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

theorem body_obligation4 (c : Dev nD) : BodyObligation (dat4 (F := F) V c) (defs₀ (F := F)) Variants.none () Set.univ := fun t => by
  have e2 : ∀ d, owns (c : Thread nD τ) ((cfg4.win 2).stage (cfg4.slots t 2)) fullShare
      (if cond4_1 (grid4.coords t) then acc4 V c (t.val + 1) else (dat4 V c).before 2 t d) ⊢ (dat4 V c).leavesExact 2 t := fun d => by
    by_cases h : cond4_1 (grid4.coords t)
    · rw [if_pos h]; unfold Dat.leavesExact; rw [liveAt4_2 t h]; exact .rfl
    · rw [if_neg h, Dat.leavesExact_idle (dat4 V c) 2 t (idleAt4_2 t h) (noFlush4_2 t h)]
      iintro H; iexists d; iexact H
  rw [bigSep_W4, bigSep_W4]
  change _ ⊢ wp frame _ Set.univ (bodyAt4 t) _
  unfold bodyAt4
  simp only [before4_0, before4_1]
  rw [show (dat4 V c).Φ t.succ = Phi4 V c (t.val + 1) from rfl, show (dat4 V c).Φ t.castSucc = Phi4 V c t.val from rfl]
  unfold Phi4
  iintro ⟨⟨⟨%xs, %hxs, HS⟩, HR⟩, Ho, ⟨%d0, H0⟩, ⟨%d1, H1⟩, ⟨%d2, H2⟩⟩
  have hR : acc4 V c (t.val + 1) = k4_pay2 (iblk4 V c 0 t) (iblk4 V c 1 t) (if cond4_0 (grid4.coords t) then k4_pay1 else xs) := by
    rw [acc4_succ]; congr 1
    by_cases h0 : t.val = 0
    · rw [if_pos ((hcond4_0 t).mpr h0), h0, acc4]
    · rw [if_neg (mt (hcond4_0 t).mp h0)]; exact (hxs h0).symm
  iapply (run4 c (grid4.coords t) _ _ _ _ _ _ _ _ (iblk4 V c 0 t) (iblk4 V c 1 t) xs _ _ hR Set.univ _)
  isplitl [H0]; · iexact H0
  isplitl [H1]; · iexact H1
  isplitl [H2]; · iexact H2
  isplitl [HS]; · iexact HS
  iintro ⟨H0, H1, H2, HS⟩
  isplitl [HS HR]
  · isplitl [HS]; swap; · iexact HR
    iexists _; isplitr; swap; · iexact HS
    ipureintro; exact fun _ => rfl
  isplitl [Ho]; · iexact Ho
  isplitl [H0]; · iexact H0
  isplitl [H1]; · iexact H1
  iapply (e2 d2); iexact H2

theorem hin4 (c : Dev nD) (PH : sProp 𝕄) :
    iprop((∃ r, prngReg c r) ∗ PH
        ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = Phi4 V c 0 from rfl, scopedRest4_split]
  unfold Phi4 Rest4
  simp only [scM4, owns_whole]
  iintro ⟨Hp, -, ⟨⟨%d, HS⟩, HB⟩⟩
  isplitl [HS]
  · iexists d; isplitr; · ipureintro; intro h; contradiction
    iexact HS
  isplitl [HB]; · iexact HB
  iexact Hp

theorem hout4 (c : Dev nD) :
    ((dat4 V c).Φ (Fin.last cfg4.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c (Fin.last cfg4.N).val from rfl, scopedRest4_split]
  unfold Phi4 Rest4
  simp only [scM4, owns_whole]
  iintro ⟨⟨%d, -, HS⟩, HB, Hp⟩
  isplitl [Hp]; · iexact Hp
  isplitr; · iempintro
  isplitl [HS]; · iexists _; iexact HS
  iexact HB

end Cert.Kernel.Hand

end
-- ==== Proof.KbChain.lean ====
import proofs.«405071_j1614907703383_1_alg».proof.Proof.KbAff0
import proofs.«405071_j1614907703383_1_alg».proof.Proof.KbAff1
import proofs.«405071_j1614907703383_1_alg».proof.Proof.KbAff2
import proofs.«405071_j1614907703383_1_alg».proof.Proof.KbAff3
import proofs.«405071_j1614907703383_1_alg».proof.Proof.KbPool
import proofs.«405071_j1614907703383_1_alg».proof.Proof.Gen.Kernel.Regions

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

abbrev B1 (c : Dev nD) : Valuation τ sig (Elt F) := V1 m c

abbrev P1 : (c : Dev nD) → (b : Ref sig .tc) → Buf (Elt F) ((c : Thread nD τ).loc b) := fun c b => B1 m c b

def X0 (c : Dev nD) : Buf (Elt F) ((c : Thread nD τ).loc main_v34) := (dat0 (P1 m) c).arrAt 5 cfg0.N
abbrev B2 (c : Dev nD) : Valuation τ sig (Elt F) := Function.update (B1 m c) main_v34 (X0 m c)
abbrev B3 (c : Dev nD) : Valuation τ sig (Elt F) := StableHlo.after hostOps1 (B2 m c)
abbrev P3 : (c : Dev nD) → (b : Ref sig .tc) → Buf (Elt F) ((c : Thread nD τ).loc b) := fun c b => B3 m c b

def X1 (c : Dev nD) : Buf (Elt F) ((c : Thread nD τ).loc main_v54) := (dat1 (P3 m) c).arrAt 5 cfg1.N
abbrev B4 (c : Dev nD) : Valuation τ sig (Elt F) := Function.update (B3 m c) main_v54 (X1 m c)
abbrev B5 (c : Dev nD) : Valuation τ sig (Elt F) := StableHlo.after hostOps2 (B4 m c)
abbrev P5 : (c : Dev nD) → (b : Ref sig .tc) → Buf (Elt F) ((c : Thread nD τ).loc b) := fun c b => B5 m c b

def X2 (c : Dev nD) : Buf (Elt F) ((c : Thread nD τ).loc main_v74) := (dat2 (P5 m) c).arrAt 5 cfg2.N
abbrev B6 (c : Dev nD) : Valuation τ sig (Elt F) := Function.update (B5 m c) main_v74 (X2 m c)
abbrev B7 (c : Dev nD) : Valuation τ sig (Elt F) := StableHlo.after hostOps3 (B6 m c)
abbrev P7 : (c : Dev nD) → (b : Ref sig .tc) → Buf (Elt F) ((c : Thread nD τ).loc b) := fun c b => B7 m c b

def X3 (c : Dev nD) : Buf (Elt F) ((c : Thread nD τ).loc main_v94) := (dat3 (P7 m) c).arrAt 5 cfg3.N
abbrev B8 (c : Dev nD) : Valuation τ sig (Elt F) := Function.update (B7 m c) main_v94 (X3 m c)
abbrev B9 (c : Dev nD) : Valuation τ sig (Elt F) := StableHlo.after hostOps4 (B8 m c)
abbrev P9 : (c : Dev nD) → (b : Ref sig .tc) → Buf (Elt F) ((c : Thread nD τ).loc b) := fun c b => B9 m c b

def X4 (c : Dev nD) : Buf (Elt F) ((c : Thread nD τ).loc main_v104) := (dat4 (P9 m) c).arrAt 2 cfg4.N
abbrev B10 (c : Dev nD) : Valuation τ sig (Elt F) := Function.update (B9 m c) main_v104 (X4 m c)
abbrev B11 (c : Dev nD) : Valuation τ sig (Elt F) := StableHlo.after hostOps5 (B10 m c)

def outs : Outs (F := F) := fun _ r c =>
  if h : r = main_v34 then h ▸ X0 m c
  else if h : r = main_v54 then h ▸ X1 m c
  else if h : r = main_v74 then h ▸ X2 m c
  else if h : r = main_v94 then h ▸ X3 m c
  else if h : r = main_v104 then h ▸ X4 m c
  else m ((c : Thread nD τ).loc r)

theorem outs_v34 (J : ℕ) (c : Dev nD) : outs m J main_v34 c = X0 m c := by unfold outs; rw [dif_pos rfl]
theorem outs_v54 (J : ℕ) (c : Dev nD) : outs m J main_v54 c = X1 m c := by
  unfold outs; rw [dif_neg (by decide), dif_pos rfl]
theorem outs_v74 (J : ℕ) (c : Dev nD) : outs m J main_v74 c = X2 m c := by
  unfold outs; rw [dif_neg (by decide), dif_neg (by decide), dif_pos rfl]
theorem outs_v94 (J : ℕ) (c : Dev nD) : outs m J main_v94 c = X3 m c := by
  unfold outs; rw [dif_neg (by decide), dif_neg (by decide), dif_neg (by decide), dif_pos rfl]
theorem outs_v104 (J : ℕ) (c : Dev nD) : outs m J main_v104 c = X4 m c := by
  unfold outs; rw [dif_neg (by decide), dif_neg (by decide), dif_neg (by decide), dif_neg (by decide), dif_pos rfl]

theorem V2_eq (c : Dev nD) : V2 m (outs m) c = B2 m c := by
  show Function.update (V1 m c) main_v34 (outs m 2 main_v34 c) = _; rw [outs_v34]
theorem V3_eq (c : Dev nD) : V3 m (outs m) c = B3 m c := by
  show StableHlo.after hostOps1 (V2 m (outs m) c) = _; rw [V2_eq]
theorem V4_eq (c : Dev nD) : V4 m (outs m) c = B4 m c := by
  show Function.update (V3 m (outs m) c) main_v54 (outs m 4 main_v54 c) = _; rw [outs_v54, V3_eq]
theorem V5_eq (c : Dev nD) : V5 m (outs m) c = B5 m c := by
  show StableHlo.after hostOps2 (V4 m (outs m) c) = _; rw [V4_eq]
theorem V6_eq (c : Dev nD) : V6 m (outs m) c = B6 m c := by
  show Function.update (V5 m (outs m) c) main_v74 (outs m 6 main_v74 c) = _; rw [outs_v74, V5_eq]
theorem V7_eq (c : Dev nD) : V7 m (outs m) c = B7 m c := by
  show StableHlo.after hostOps3 (V6 m (outs m) c) = _; rw [V6_eq]
theorem V8_eq (c : Dev nD) : V8 m (outs m) c = B8 m c := by
  show Function.update (V7 m (outs m) c) main_v94 (outs m 8 main_v94 c) = _; rw [outs_v94, V7_eq]
theorem V9_eq (c : Dev nD) : V9 m (outs m) c = B9 m c := by
  show StableHlo.after hostOps4 (V8 m (outs m) c) = _; rw [V8_eq]
theorem V10_eq (c : Dev nD) : V10 m (outs m) c = B10 m c := by
  show Function.update (V9 m (outs m) c) main_v104 (outs m 10 main_v104 c) = _; rw [outs_v104, V9_eq]
theorem V11_eq (c : Dev nD) : V11 m (outs m) c = B11 m c := by
  show StableHlo.after hostOps5 (V10 m (outs m) c) = _; rw [V10_eq]

def pdats : (p : Fin 5) → (c : Dev nD) → Dat τ (Elt F) Unit ℕ (UR sig nD τ) ℕ (cfgs p) c
  | ⟨0, _⟩ => fun c => dat0 (P1 m) c
  | ⟨1, _⟩ => fun c => dat1 (P3 m) c
  | ⟨2, _⟩ => fun c => dat2 (P5 m) c
  | ⟨3, _⟩ => fun c => dat3 (P7 m) c
  | ⟨4, _⟩ => fun c => dat4 (P9 m) c

end Cert.Kernel.Hand

end
-- ==== Proof.KbSegs.lean ====
import proofs.«405071_j1614907703383_1_alg».proof.Proof.KbChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ee : Fin 6 → Dev nD → sProp 𝕄 := fun _ c =>
  iprop((∃ r, prngReg c r) ∗ ∃ W, owes (c : Thread nD τ) (0 : CellTallies nD τ sig Unit) W)

theorem plain : ∀ (p : Fin 5) (c : Dev nD),
    (∀ w, (pdats m p c).q w = fullShare) ∧ (∀ t, (pdats m p c).owed t = 0) ∧ (pdats m p c).recorded 0 = Set.univ
  | ⟨0, _⟩, _ | ⟨1, _⟩, _ | ⟨2, _⟩, _ | ⟨3, _⟩, _ | ⟨4, _⟩, _ => ⟨fun _ => rfl, fun _ => rfl, rfl⟩

section Region

variable {p : Fin 5} (lf : Pipeline.LaunchFacts (nD := nD) (τ := τ) cfgs p) (V : Dev nD → Valuation τ sig (Elt F))
  (o : Fin (cfgs p).W)

/-- The contents at a region's exit: the entry contents `V`, updated at window `o`'s array. -/
abbrev exitV (c : Dev nD) : Valuation τ sig (Elt F) :=
  Function.update (V c) (Proc.devRef .tc (Pipeline.arrRef (cfgs p).spec o)) ((pdats m p c).arrAt o (cfgs p).N)

variable (hA : ∀ c w, (pdats m p c).A w = V c (Proc.devRef .tc (Pipeline.arrRef (cfgs p).spec w)))
  (ho : ∀ w, w ≠ o → ((cfgs p).win w).isOut = false)

include lf hA ho in
/-- Each array's final contents are the exit contents' value at it: the arrays are distinct and only `o`'s changes. -/
theorem hF_of (c : Dev nD) (w : Fin (cfgs p).W) :
    (pdats m p c).arrAt w (cfgs p).N = exitV m V o c (Proc.devRef .tc (Pipeline.arrRef (cfgs p).spec w)) := by
  by_cases h : w = o
  · subst h; exact (Function.update_self (f := V c) _ _).symm
  · rw [exitV, Function.update_of_ne (StableHlo.devRef_ne_of_ne fun e => h (lf.win.arr_inj e)), (pdats m p c).arrAt_in w (ho w h)]
    exact hA c w

def regOf (hbody : ∀ c, BodyObligation (pdats m p c) defs₀ Variants.none () Set.univ)
    (hin : ∀ c (PH : sProp 𝕄), iprop((∃ r, prngReg c r) ∗ PH ∗ Pipeline.scopedRest (cfgs p).spec c) ⊢ (pdats m p c).Φ 0)
    (hout : ∀ c, (pdats m p c).Φ (Fin.last (cfgs p).N) ⊢ iprop((∃ r, prngReg c r) ∗ Pipeline.ownSems0 (fun k : PEmpty => k.elim) c
      ∗ Pipeline.scopedRest (cfgs p).spec c)) :
    Pipeline.RegionSeg (pcfgs (F := F)) adm (pdats m) () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ (fun _ => ∅) (fun _ _ => 0) p fun c => (plain m p c).2.1
  pre c := iprop(StableHlo.held (c : Thread nD τ) (Pipeline.ucRefs τ sig) (V c) ∗ Ee 0 c)
  post c := iprop(StableHlo.held (c : Thread nD τ) (Pipeline.ucRefs τ sig) (exitV m V o c) ∗ Ee 0 c)
  X c := iprop(∃ r, prngReg c r)
  Y c := iprop(∃ r, prngReg c r)
  Z c := Pipeline.unscopedRest (cfgs p).spec c (fun b => V c b)
  hentry c := by
    have hsplit := Pipeline.arrays_of_unscopedBufs (p := p) (pcfgs (F := F)) adm (pdats m) lf.win lf.arr_whole c
      ((pdats m p c).share_full (plain m p c).1) (fun b => V c b) (hA c)
    rw [Pipeline.unscopedBufs_held] at hsplit
    unfold Pipeline.prefHeld Pipeline.Dat.owesAt Pipeline.owesWithin
    rw [show (Finset.univ : Finset (Fin 0)) = ∅ from rfl, BI.bigSep_empty, (plain m p c).2.1]
    iintro ⟨⟨Hub, Hp, %W, HO⟩, -⟩
    icases hsplit $$ Hub with ⟨Ha, Hrest⟩
    imodintro
    iframe Ha Hp Hrest
    isplitr; · iempintro
    iexists W; iframe HO
    ipureintro; exact fun _ _ => Or.inl ((plain m p c).2.2 ▸ trivial)
  hin c := hin c _
  hout := hout
  hexit c := by
    have hjoin := Pipeline.unscopedBufs_of_arrays (p := p) (pcfgs (F := F)) adm lf.win lf.arr_whole c (pdats m)
      ((pdats m p c).share_full (plain m p c).1) (fun b => V c b) (fun b => exitV m V o c b) ((pdats m p c).arrAt · (cfgs p).N)
      (hF_of m lf V o hA ho c) fun b hb => Function.update_of_ne (StableHlo.devRef_ne_of_ne fun e =>
        hb (Finset.mem_image.mpr ⟨o, Finset.mem_univ _, e.symm⟩)) _ _
    rw [Pipeline.unscopedBufs_held] at hjoin
    unfold Pipeline.Dat.owesAt Pipeline.owesWithin
    rw [(plain m p c).2.1]
    iintro ⟨Ha, ⟨%W, -, HO⟩, HY, Hrest⟩
    imodintro
    isplitl [Ha Hrest]; · iapply hjoin; iframe
    isplitl [HY]; · iexact HY
    iexists W; iexact HO

end Region

section
variable {gr W : ℕ} (spec : Fin W → Pipeline.WinSpec sig gr) (c : Dev nD)

theorem hinA (PH : sProp 𝕄) : iprop((∃ r, prngReg c r) ∗ PH ∗ Pipeline.scopedRest spec c) ⊢ Pipeline.ΦA spec c := by
  unfold Pipeline.ΦA; iintro ⟨Hp, -, Hr⟩; iframe

theorem houtA : (Pipeline.ΦA spec c : sProp 𝕄) ⊢ iprop((∃ r, prngReg c r) ∗ Pipeline.ownSems0 (fun k : PEmpty => k.elim) c
    ∗ Pipeline.scopedRest spec c) := by
  rw [Pipeline.ownSems0_none]; unfold Pipeline.ΦA; iintro ⟨Hr, Hp⟩; iframe; iempintro

end

def reg0 : Pipeline.RegionSeg (pcfgs (F := F)) adm (pdats m) () defs₀ Variants.none (fun _ => ∅) (fun _ _ => 0) 0 :=
  regOf m launch0 (B1 m) 5 (A_eq0 (P1 m)) (by decide) (body_obligation0 (P1 m)) (hinA _) (houtA _)

theorem hpre0 (c : Dev nD) : iprop(StableHlo.held (c : Thread nD τ) (Pipeline.ucRefs τ sig) (V1 m c) ∗ Ee 0 c) ⊢ (reg0 m).pre c := .rfl
theorem hpost0 (c : Dev nD) : (reg0 m).post c ⊢ iprop(StableHlo.held (c : Thread nD τ) (Pipeline.ucRefs τ sig) (V2 m (outs m) c) ∗ Ee 1 c) := by
  rw [V2_eq]; exact .rfl

def reg1 : Pipeline.RegionSeg (pcfgs (F := F)) adm (pdats m) () defs₀ Variants.none (fun _ => ∅) (fun _ _ => 0) 1 :=
  regOf m launch1 (B3 m) 5 (A_eq1 (P3 m)) (by decide) (body_obligation1 (P3 m)) (hinA _) (houtA _)

theorem hpre1 (c : Dev nD) : iprop(StableHlo.held (c : Thread nD τ) (Pipeline.ucRefs τ sig) (V3 m (outs m) c) ∗ Ee 1 c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ Ee 2 c) := by
  rw [V4_eq]; exact .rfl

def reg2 : Pipeline.RegionSeg (pcfgs (F := F)) adm (pdats m) () defs₀ Variants.none (fun _ => ∅) (fun _ _ => 0) 2 :=
  regOf m launch2 (B5 m) 5 (A_eq2 (P5 m)) (by decide) (body_obligation2 (P5 m)) (hinA _) (houtA _)

theorem hpre2 (c : Dev nD) : iprop(StableHlo.held (c : Thread nD τ) (Pipeline.ucRefs τ sig) (V5 m (outs m) c) ∗ Ee 2 c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ Ee 3 c) := by
  rw [V6_eq]; exact .rfl

def reg3 : Pipeline.RegionSeg (pcfgs (F := F)) adm (pdats m) () defs₀ Variants.none (fun _ => ∅) (fun _ _ => 0) 3 :=
  regOf m launch3 (B7 m) 5 (A_eq3 (P7 m)) (by decide) (body_obligation3 (P7 m)) (hinA _) (houtA _)

theorem hpre3 (c : Dev nD) : iprop(StableHlo.held (c : Thread nD τ) (Pipeline.ucRefs τ sig) (V7 m (outs m) c) ∗ Ee 3 c) ⊢ (reg3 m).pre c := by
  rw [V7_eq]; exact .rfl
theorem hpost3 (c : Dev nD) : (reg3 m).post c ⊢ iprop(StableHlo.held (c : Thread nD τ) (Pipeline.ucRefs τ sig) (V8 m (outs m) c) ∗ Ee 4 c) := by
  rw [V8_eq]; exact .rfl

def reg4 : Pipeline.RegionSeg (pcfgs (F := F)) adm (pdats m) () defs₀ Variants.none (fun _ => ∅) (fun _ _ => 0) 4 :=
  regOf m launch4 (B9 m) 2 (A_eq4 (P9 m)) (by decide) (body_obligation4 (P9 m)) (hin4 (P9 m)) (hout4 (P9 m))

theorem hpre4 (c : Dev nD) : iprop(StableHlo.held (c : Thread nD τ) (Pipeline.ucRefs τ sig) (V9 m (outs m) c) ∗ Ee 4 c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ Ee 5 c) := by
  rw [V10_eq]; exact .rfl

end Cert.Kernel.Hand

end
-- ==== Proof.KbRun.lean ====
import proofs.«405071_j1614907703383_1_alg».proof.Proof.KbSegs
import proofs.«405071_j1614907703383_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_first :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts (fun _ : GSem nD τ sig => (∅ : Finset Unit)) (fun _ _ => (0 : ℕ)))
      ⊢ (|={Set.univ}=> bigSep Finset.univ (Ee (F := F) 0) : sProp 𝕄) :=
  Pipeline.initEach (fun _ : GSem nD τ sig => (∅ : Finset Unit)) (fun _ _ => (0 : ℕ)) fun c => by
    iintro ⟨⟨-, HO, -, Hp, -⟩, -⟩
    imodintro
    isplitl [Hp]; · iexists _; iexact Hp
    iexists ∅; iexact HO

theorem rest_last (c : Dev nD) : Ee (F := F) 5 c ⊢ (iprop(∃ W, owes (c : Thread nD τ) (0 : CellTallies nD τ sig Unit) W) : sProp 𝕄) := by
  iintro ⟨-, HO⟩; iexact HO

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (emb₁ : Emb (UR sig nD τ) 𝕄) () Variants.none (fun _ => ∅) (fun _ _ => 0) (fun _ _ => rfl) ρ (outs m) (pdats m)
      (0 : Dev nD → CellTallies nD τ sig Unit) (fun _ => (BI.emp : sProp 𝕄))
      (initOf (Pipeline.cells cfgs cellOf_inj) (Pipeline.launchToks cfgs cellOf_inj)) launch_ghost
      (Ee (F := F)) (rest_first ρ) rest_last
      (reg0 m) (hpre0 m) (hpost0 m) (reg1 m) (hpre1 m) (hpost1 m) (reg2 m) (hpre2 m) (hpost2 m)
      (reg3 m) (hpre3 m) (hpost3 m) (reg4 m) (hpre4 m) (hpost4 m)

end Cert.Kernel.Hand

end
-- ==== Proof.KiAff0.lean ====
import proofs.«405071_j1614907703383_1_alg».proof.Proof.Gen.KernelIdeal.Launch
import proofs.«405071_j1614907703383_1_alg».proof.Proof.Gen.KernelIdeal.Skeleton
import proofs.«405071_j1614907703383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t` of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

/-- The output block as a function of the five input blocks: one whole store of the payload of five whole loads. -/
def out0_5 (x0 : Vec F S5000x128 .f32) (x1 : Vec F S5000x128 .f32) (x2 : Vec F S128x128 .f32) (x3 : Vec F S128x128 .f32) (x4 : Vec F S1x128 .f32) : Vec F S5000x128 .f32 :=
  View.canon [⟨r0_a, k0_pay1 (View.ld x0 r0_a) (View.ld x1 r0_a) (View.ld x2 r0_b) (View.ld x3 r0_b) (View.ld x4 r0_c)⟩]

set_option maxHeartbeats 1000000 in
theorem sound_kernel0 (c : Dev nD) (E : Set ℕ) (i : grid0.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__affine_kernel i arg0 harg0 arg1 harg1 arg2 harg2 arg3 harg3 arg4 harg4 arg5 harg5) K := by
  simp only [cc0__affine_kernel_eq_skeleton]; unfold cc0__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r0_a, _⟩] S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
    refine ((dat0 V c).before_in_eq_fetched _ rfl (fun _ => rfl) (fun _ _ _ => rfl) (fun t => ?_) t d).trans ?_ <;>
    ((try simp only [after0_0, after0_1, after0_2, after0_3, after0_4]); (try unfold Dat.fetched); unfold Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  unfold bodyPre0 bodyPost0 bodyAt0
  obtain ⟨h0, h1, h2, h3, h4⟩ := before0 V c t
  simp only [h0, h1, h2, h3, h4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region0

end Cert.KernelIdeal.Hand

end
-- ==== Proof.KiAff1.lean ====
import proofs.«405071_j1614907703383_1_alg».proof.Proof.Gen.KernelIdeal.Launch
import proofs.«405071_j1614907703383_1_alg».proof.Proof.Gen.KernelIdeal.Skeleton
import proofs.«405071_j1614907703383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t` of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

/-- The output block as a function of the five input blocks: one whole store of the payload of five whole loads. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_a, k1_pay1 (View.ld x0 r1_a) (View.ld x1 r1_a) (View.ld x2 r1_b) (View.ld x3 r1_b) (View.ld x4 r1_c)⟩]

set_option maxHeartbeats 1000000 in
theorem sound_kernel1 (c : Dev nD) (E : Set ℕ) (i : grid1.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__affine_kernel i arg0 harg0 arg1 harg1 arg2 harg2 arg3 harg3 arg4 harg4 arg5 harg5) K := by
  simp only [cc1__affine_kernel_eq_skeleton]; unfold cc1__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r1_a, _⟩] S5000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) := by
  refine ⟨?_, ?_, ?_, ?_, ?_⟩ <;> intro d <;>
    refine ((dat1 V c).before_in_eq_fetched _ rfl (fun _ => rfl) (fun _ _ _ => rfl) (fun t => ?_) t d).trans ?_ <;>
    ((try simp only [after1_0, after1_1, after1_2, after1_3, after1_4]); (try unfold Dat.fetched); unfold Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1
  obtain ⟨h0, h1, h2, h3, h4⟩ := before1 V c t
  simp only [h0, h1, h2, h3, h4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region1

end Cert.KernelIdeal.Hand

end
-- ==== Proof.KiAff2.lean ====
import proofs.«405071_j1614907703383_1_alg».proof.Proof.Gen.KernelIdeal.Launch
import proofs.«405071_j1614907703383_1_alg».proof.Proof.Gen.KernelIdeal.Skeleton
import proofs.«405071_j1614907703383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t` of the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

/-- The output block as a function of the five input blocks: one whole store of the payload of five whole loads. -/
def out2_5 (x0 : Vec F S5000x128 .f32) (x1 : Vec F S5000x128 .f32) (x2 : Vec F S128x128 .f32) (x3 : Vec F S128x128 .f32) (x4 : Vec F S1x128 .f32) : Vec F S5000x128 .f32 :=
  View.canon [⟨r2_a, k2_pay1 (View.ld x0 r2_a) (View.ld x1 r2_a) (View.ld x2 r2_b) (View.ld x3 r2_b) (View.ld x4 r2_c)⟩]

set_option maxHeartbeats 1000000 in
theorem sound_kernel2 (c : Dev nD) (E : Set ℕ) (i : grid2.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__affine_kernel i arg0 harg0 arg1 harg1 arg2 harg2 arg3 harg3 arg4 harg4 arg5 harg5) K := by
  simp only [cc2__affine_kernel_eq_skeleton]; unfold cc2__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r2_a, _⟩] S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> intro d <;>
    refine ((dat2 V c).before_in_eq_fetched _ rfl (fun _ => rfl) (fun _ _ _ => rfl) (fun t => ?_) t d).trans ?_ <;>
    ((try simp only [after2_0, after2_1, after2_2, after2_3, after2_4]); (try unfold Dat.fetched); unfold Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem body_obligation2 (c : Dev nD) : BodyObligation (dat2 (F := F) V c) (defs₀ (F := F)) Variants.none () Set.univ := fun t => by
  rw [bigSep_W2, bigSep_W2]
  show bodyPre2 V c t ⊢ wp frame (wpE (defs₀ (F := F)) Variants.none c none) Set.univ (bodyAt2 t) (fun _ => bodyPost2 V c t)
  unfold bodyPre2 bodyPost2 bodyAt2
  obtain ⟨h0, h1, h2, h3, h4⟩ := before2 V c t
  simp only [h0, h1, h2, h3, h4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region2

end Cert.KernelIdeal.Hand

end
-- ==== Proof.KiAff3.lean ====
import proofs.«405071_j1614907703383_1_alg».proof.Proof.Gen.KernelIdeal.Launch
import proofs.«405071_j1614907703383_1_alg».proof.Proof.Gen.KernelIdeal.Skeleton
import proofs.«405071_j1614907703383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t` of the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

/-- The output block as a function of the five input blocks: one whole store of the payload of five whole loads. -/
def out3_5 (x0 : Vec F S5000x128 .f32) (x1 : Vec F S5000x128 .f32) (x2 : Vec F S128x128 .f32) (x3 : Vec F S128x128 .f32) (x4 : Vec F S1x128 .f32) : Vec F S5000x128 .f32 :=
  View.canon [⟨r3_a, k3_pay1 (View.ld x0 r3_a) (View.ld x1 r3_a) (View.ld x2 r3_b) (View.ld x3 r3_b) (View.ld x4 r3_c)⟩]

set_option maxHeartbeats 1000000 in
theorem sound_kernel3 (c : Dev nD) (E : Set ℕ) (i : grid3.Coords)
    (arg0 : Memref sig .tc .vmem S5000x128 .f32) (harg0 : arg0.IsWhole) (arg1 : Memref sig .tc .vmem S5000x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__affine_kernel i arg0 harg0 arg1 harg1 arg2 harg2 arg3 harg3 arg4 harg4 arg5 harg5) K := by
  simp only [cc3__affine_kernel_eq_skeleton]; unfold cc3__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (View.cover_of_tiled [⟨r3_a, _⟩] S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;> intro d <;>
    refine ((dat3 V c).before_in_eq_fetched _ rfl (fun _ => rfl) (fun _ _ _ => rfl) (fun t => ?_) t d).trans ?_ <;>
    ((try simp only [after3_0, after3_1, after3_2, after3_3, after3_4]); (try unfold Dat.fetched); unfold Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem body_obligation3 (c : Dev nD) : BodyObligation (dat3 (F := F) V c) (defs₀ (F := F)) Variants.none () Set.univ := fun t => by
  rw [bigSep_W3, bigSep_W3]
  show bodyPre3 V c t ⊢ wp frame (wpE (defs₀ (F := F)) Variants.none c none) Set.univ (bodyAt3 t) (fun _ => bodyPost3 V c t)
  unfold bodyPre3 bodyPost3 bodyAt3
  obtain ⟨h0, h1, h2, h3, h4⟩ := before3 V c t
  simp only [h0, h1, h2, h3, h4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Region3

end Cert.KernelIdeal.Hand

end
-- ==== Proof.KiPool.lean ====
import proofs.«405071_j1614907703383_1_alg».proof.Proof.Gen.KernelIdeal.Launch
import proofs.«405071_j1614907703383_1_alg».proof.Proof.Gen.KernelIdeal.Skeleton
import proofs.«405071_j1614907703383_1_alg».proof.Proof.Gen.KernelIdeal.Points
import proofs.«405071_j1614907703383_1_alg».proof.Proof.Gen.KernelIdeal.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

abbrev scM4 : Memref sig .tc .vmem S64x128 .f32 := Memref.whole cc4_scratch0

theorem off00 : (![0, 0] : Fin 2 → ℕ) = fun _ => 0 := by
  funext a; fin_cases a <;> rfl

theorem read_write4 {κ : Kind} {sp : Space} (v : View sig κ sp S64x128 .f32) (f : v.ty.Contents (Elt F))
    (w : S64x128.Idx → Elt F .f32) :
    v.read (Elt F) (v.writes (Elt F) f [⟨Rect.unit ![0, 0] S64x128.size inb_S64x128_S64x128_0_0, w⟩]) = w := by
  rw [View.read_writes_eq_canon _ _ _ (fun y => ⟨_, List.mem_cons_self, View.mem_set_unit_zero off00 inb_S64x128_S64x128_0_0 y⟩),
    View.canon_unit_zero off00]

/-- One pooling step at any point: the running sum, taken as zero under the first condition, plus the block's product. -/
theorem run4 (c : Dev nD) (i : grid4.Coords) (arg1 : Memref sig .tc .vmem S5000x128 .f32) (harg1 : arg1.IsWhole)
    (arg2 : Memref sig .tc .vmem S5000x64 .bf16) (harg2 : arg2.IsWhole) (arg3 : Memref sig .tc .vmem S64x128 .f32) (harg3 : arg3.IsWhole)
    (arg4 : Memref sig .tc .vmem S64x128 .f32) (harg4 : arg4.IsWhole)
    (x0 : Vec F S5000x128 .f32) (x1 : Vec F S5000x64 .bf16) (xs d3 R : Vec F S64x128 .f32)
    (hR : R = k4_pay2 x0 x1 (if cond4_0 i then k4_pay1 else xs)) (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare xs
        ∗ (iprop(owns (c : Thread nD τ) arg1 fullShare x0 ∗ owns (c : Thread nD τ) arg2 fullShare x1
            ∗ owns (c : Thread nD τ) arg3 fullShare (if cond4_1 i then R else d3) ∗ owns (c : Thread nD τ) arg4 fullShare R) -∗ K ⟨⟩))
      ⊢ wp frame (wpE (defs₀ (F := F)) Variants.none c none) E (cc4__pool_kernel i arg1 harg1 arg2 harg2 arg3 harg3 arg4 harg4) K := by
  subst hR
  simp only [cc4__pool_kernel_eq_skeleton]; unfold cc4__pool_kernel_skel
  unfold owns
  iintro ⟨⟨%f0, %hf0, H0⟩, ⟨%f1, %hf1, H1⟩, ⟨%f3, %hf3, H3⟩, ⟨%fs, %hfs, HS⟩, Hk⟩
  sl_exec
  sl_step
  have hv : run4.sl.v8 c i arg4 fs = if cond4_0 i then k4_pay1 else xs := by
    unfold run4.sl.v8 run4.sl.v2 run4.sl.v1 run4.sl.v0
    rw [View.readAt_eq_ld, View.ld_unit_zero off00]
    by_cases h : cond4_0 i
    · rw [dif_pos h, if_pos h, read_write4]
    · rw [dif_neg h, if_neg h, hfs]
  iapply Hk
  isplitl [H0]
  · iexists _; isplitr; · ipureintro; exact hf0
    iexact H0
  isplitl [H1]
  · iexists _; isplitr; · ipureintro; exact hf1
    iexact H1
  isplitl [H3]
  · iexists _; isplitr
    swap; · iexact H3
    ipureintro
    by_cases h : cond4_1 i
    · rw [dif_pos h, if_pos h, read_write4]
      unfold run4.sl.v17 run4.sl.HS_1
      rw [View.readCov_unit_zero _ off00]
      simp only [View.readAt_eq_ld, hf0, hf1, hv]
      rw [View.ld_unit_zero off00, View.ld_unit_zero off00]
    · rw [dif_neg h, if_neg h, hf3]
  iexists _; isplitr
  swap; · iexact HS
  ipureintro
  unfold run4.sl.HS_1
  rw [read_write4]
  simp only [View.readAt_eq_ld, hf0, hf1, hv]
  rw [View.ld_unit_zero off00, View.ld_unit_zero off00]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : ℕ → Vec F S64x128 .f32
  | 0 => k4_pay1
  | n + 1 =>
    if hn : n < cfg4.N then
      k4_pay2 (iblk4 V c 0 ⟨n, hn⟩) (iblk4 V c 1 ⟨n, hn⟩) (if n = 0 then k4_pay1 else acc4 c n)
    else acc4 c n

/-- Each point adds its block's product to the sum of the points before it. -/
theorem acc4_succ (c : Dev nD) (t : Fin cfg4.N) :
    acc4 V c (t.val + 1) = k4_pay2 (iblk4 V c 0 t) (iblk4 V c 1 t) (acc4 V c t.val) := by
  rw [acc4, dif_pos t.isLt]; congr 1
  generalize t.val = n; cases n <;> rfl

def Rest4 (c : Dev nD) : sProp 𝕄 :=
  iprop(Pipeline.scopedRestBut (Ix := Unit) (Name := ℕ) (U := UR sig nD τ) (Lvl := ℕ) (Val := Elt F) spec4 c [cc4_scratch0] ∗ ∃ r, prngReg c r)

/-- Before position `n` the running sum is `acc4 n`, except that before the first point nothing is known of it. -/
def Phi4 (c : Dev nD) (n : ℕ) : sProp 𝕄 :=
  iprop((∃ d, ⌜n ≠ 0 → d = acc4 V c n⌝ ∗ owns (c : Thread nD τ) scM4 fullShare d) ∗ Rest4 c)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c (t.val + 1)
  Φ t := Phi4 V c t.val
  q _ := fullShare
  owed _ := 0

theorem A_eq4 (c : Dev nD) (w : Fin cfg4.W) : (dat4 V c).A w = V c (Pipeline.arrRef spec4 w) := rfl

theorem after4_2_last (c : Dev nD) (t : Fin cfg4.N) (ht : t.val = 9) : (dat4 V c).after 2 t = acc4 V c 10 := by
  rw [show (dat4 V c).after 2 t = acc4 V c (t.val + 1) from rfl, ht]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

theorem body_obligation4 (c : Dev nD) : BodyObligation (dat4 (F := F) V c) (defs₀ (F := F)) Variants.none () Set.univ := fun t => by
  have e2 : ∀ d, owns (c : Thread nD τ) ((cfg4.win 2).stage (cfg4.slots t 2)) fullShare
      (if cond4_1 (grid4.coords t) then acc4 V c (t.val + 1) else (dat4 V c).before 2 t d) ⊢ (dat4 V c).leavesExact 2 t := fun d => by
    by_cases h : cond4_1 (grid4.coords t)
    · rw [if_pos h]; unfold Dat.leavesExact; rw [liveAt4_2 t h]; exact .rfl
    · rw [if_neg h, Dat.leavesExact_idle (dat4 V c) 2 t (idleAt4_2 t h) (noFlush4_2 t h)]
      iintro H; iexists d; iexact H
  rw [bigSep_W4, bigSep_W4]
  change _ ⊢ wp frame _ Set.univ (bodyAt4 t) _
  unfold bodyAt4
  simp only [before4_0, before4_1]
  rw [show (dat4 V c).Φ t.succ = Phi4 V c (t.val + 1) from rfl, show (dat4 V c).Φ t.castSucc = Phi4 V c t.val from rfl]
  unfold Phi4
  iintro ⟨⟨⟨%xs, %hxs, HS⟩, HR⟩, Ho, ⟨%d0, H0⟩, ⟨%d1, H1⟩, ⟨%d2, H2⟩⟩
  have hR : acc4 V c (t.val + 1) = k4_pay2 (iblk4 V c 0 t) (iblk4 V c 1 t) (if cond4_0 (grid4.coords t) then k4_pay1 else xs) := by
    rw [acc4_succ]; congr 1
    by_cases h0 : t.val = 0
    · rw [if_pos ((hcond4_0 t).mpr h0), h0, acc4]
    · rw [if_neg (mt (hcond4_0 t).mp h0)]; exact (hxs h0).symm
  iapply (run4 c (grid4.coords t) _ _ _ _ _ _ _ _ (iblk4 V c 0 t) (iblk4 V c 1 t) xs _ _ hR Set.univ _)
  isplitl [H0]; · iexact H0
  isplitl [H1]; · iexact H1
  isplitl [H2]; · iexact H2
  isplitl [HS]; · iexact HS
  iintro ⟨H0, H1, H2, HS⟩
  isplitl [HS HR]
  · isplitl [HS]; swap; · iexact HR
    iexists _; isplitr; swap; · iexact HS
    ipureintro; exact fun _ => rfl
  isplitl [Ho]; · iexact Ho
  isplitl [H0]; · iexact H0
  isplitl [H1]; · iexact H1
  iapply (e2 d2); iexact H2

theorem hin4 (c : Dev nD) (PH : sProp 𝕄) :
    iprop((∃ r, prngReg c r) ∗ PH
        ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = Phi4 V c 0 from rfl, scopedRest4_split]
  unfold Phi4 Rest4
  simp only [scM4, owns_whole]
  iintro ⟨Hp, -, ⟨⟨%d, HS⟩, HB⟩⟩
  isplitl [HS]
  · iexists d; isplitr; · ipureintro; intro h; contradiction
    iexact HS
  isplitl [HB]; · iexact HB
  iexact Hp

theorem hout4 (c : Dev nD) :
    ((dat4 V c).Φ (Fin.last cfg4.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c (Fin.last cfg4.N).val from rfl, scopedRest4_split]
  unfold Phi4 Rest4
  simp only [scM4, owns_whole]
  iintro ⟨⟨%d, -, HS⟩, HB, Hp⟩
  isplitl [Hp]; · iexact Hp
  isplitr; · iempintro
  isplitl [HS]; · iexists _; iexact HS
  iexact HB

end Cert.KernelIdeal.Hand

end
-- ==== Proof.KiChain.lean ====
import proofs.«405071_j1614907703383_1_alg».proof.Proof.KiAff0
import proofs.«405071_j1614907703383_1_alg».proof.Proof.KiAff1
import proofs.«405071_j1614907703383_1_alg».proof.Proof.KiAff2
import proofs.«405071_j1614907703383_1_alg».proof.Proof.KiAff3
import proofs.«405071_j1614907703383_1_alg».proof.Proof.KiPool
import proofs.«405071_j1614907703383_1_alg».proof.Proof.Gen.KernelIdeal.Regions

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

abbrev B1 (c : Dev nD) : Valuation τ sig (Elt F) := V1 m c

abbrev P1 : (c : Dev nD) → (b : Ref sig .tc) → Buf (Elt F) ((c : Thread nD τ).loc b) := fun c b => B1 m c b

def X0 (c : Dev nD) : Buf (Elt F) ((c : Thread nD τ).loc main_v34) := (dat0 (P1 m) c).arrAt 5 cfg0.N
abbrev B2 (c : Dev nD) : Valuation τ sig (Elt F) := Function.update (B1 m c) main_v34 (X0 m c)
abbrev B3 (c : Dev nD) : Valuation τ sig (Elt F) := StableHlo.after hostOps1 (B2 m c)
abbrev P3 : (c : Dev nD) → (b : Ref sig .tc) → Buf (Elt F) ((c : Thread nD τ).loc b) := fun c b => B3 m c b

def X1 (c : Dev nD) : Buf (Elt F) ((c : Thread nD τ).loc main_v54) := (dat1 (P3 m) c).arrAt 5 cfg1.N
abbrev B4 (c : Dev nD) : Valuation τ sig (Elt F) := Function.update (B3 m c) main_v54 (X1 m c)
abbrev B5 (c : Dev nD) : Valuation τ sig (Elt F) := StableHlo.after hostOps2 (B4 m c)
abbrev P5 : (c : Dev nD) → (b : Ref sig .tc) → Buf (Elt F) ((c : Thread nD τ).loc b) := fun c b => B5 m c b

def X2 (c : Dev nD) : Buf (Elt F) ((c : Thread nD τ).loc main_v74) := (dat2 (P5 m) c).arrAt 5 cfg2.N
abbrev B6 (c : Dev nD) : Valuation τ sig (Elt F) := Function.update (B5 m c) main_v74 (X2 m c)
abbrev B7 (c : Dev nD) : Valuation τ sig (Elt F) := StableHlo.after hostOps3 (B6 m c)
abbrev P7 : (c : Dev nD) → (b : Ref sig .tc) → Buf (Elt F) ((c : Thread nD τ).loc b) := fun c b => B7 m c b

def X3 (c : Dev nD) : Buf (Elt F) ((c : Thread nD τ).loc main_v94) := (dat3 (P7 m) c).arrAt 5 cfg3.N
abbrev B8 (c : Dev nD) : Valuation τ sig (Elt F) := Function.update (B7 m c) main_v94 (X3 m c)
abbrev B9 (c : Dev nD) : Valuation τ sig (Elt F) := StableHlo.after hostOps4 (B8 m c)
abbrev P9 : (c : Dev nD) → (b : Ref sig .tc) → Buf (Elt F) ((c : Thread nD τ).loc b) := fun c b => B9 m c b

def X4 (c : Dev nD) : Buf (Elt F) ((c : Thread nD τ).loc main_v104) := (dat4 (P9 m) c).arrAt 2 cfg4.N
abbrev B10 (c : Dev nD) : Valuation τ sig (Elt F) := Function.update (B9 m c) main_v104 (X4 m c)
abbrev B11 (c : Dev nD) : Valuation τ sig (Elt F) := StableHlo.after hostOps5 (B10 m c)

def outs : Outs (F := F) := fun _ r c =>
  if h : r = main_v34 then h ▸ X0 m c
  else if h : r = main_v54 then h ▸ X1 m c
  else if h : r = main_v74 then h ▸ X2 m c
  else if h : r = main_v94 then h ▸ X3 m c
  else if h : r = main_v104 then h ▸ X4 m c
  else m ((c : Thread nD τ).loc r)

theorem outs_v34 (J : ℕ) (c : Dev nD) : outs m J main_v34 c = X0 m c := by unfold outs; rw [dif_pos rfl]
theorem outs_v54 (J : ℕ) (c : Dev nD) : outs m J main_v54 c = X1 m c := by
  unfold outs; rw [dif_neg (by decide), dif_pos rfl]
theorem outs_v74 (J : ℕ) (c : Dev nD) : outs m J main_v74 c = X2 m c := by
  unfold outs; rw [dif_neg (by decide), dif_neg (by decide), dif_pos rfl]
theorem outs_v94 (J : ℕ) (c : Dev nD) : outs m J main_v94 c = X3 m c := by
  unfold outs; rw [dif_neg (by decide), dif_neg (by decide), dif_neg (by decide), dif_pos rfl]
theorem outs_v104 (J : ℕ) (c : Dev nD) : outs m J main_v104 c = X4 m c := by
  unfold outs; rw [dif_neg (by decide), dif_neg (by decide), dif_neg (by decide), dif_neg (by decide), dif_pos rfl]

theorem V2_eq (c : Dev nD) : V2 m (outs m) c = B2 m c := by
  show Function.update (V1 m c) main_v34 (outs m 2 main_v34 c) = _; rw [outs_v34]
theorem V3_eq (c : Dev nD) : V3 m (outs m) c = B3 m c := by
  show StableHlo.after hostOps1 (V2 m (outs m) c) = _; rw [V2_eq]
theorem V4_eq (c : Dev nD) : V4 m (outs m) c = B4 m c := by
  show Function.update (V3 m (outs m) c) main_v54 (outs m 4 main_v54 c) = _; rw [outs_v54, V3_eq]
theorem V5_eq (c : Dev nD) : V5 m (outs m) c = B5 m c := by
  show StableHlo.after hostOps2 (V4 m (outs m) c) = _; rw [V4_eq]
theorem V6_eq (c : Dev nD) : V6 m (outs m) c = B6 m c := by
  show Function.update (V5 m (outs m) c) main_v74 (outs m 6 main_v74 c) = _; rw [outs_v74, V5_eq]
theorem V7_eq (c : Dev nD) : V7 m (outs m) c = B7 m c := by
  show StableHlo.after hostOps3 (V6 m (outs m) c) = _; rw [V6_eq]
theorem V8_eq (c : Dev nD) : V8 m (outs m) c = B8 m c := by
  show Function.update (V7 m (outs m) c) main_v94 (outs m 8 main_v94 c) = _; rw [outs_v94, V7_eq]
theorem V9_eq (c : Dev nD) : V9 m (outs m) c = B9 m c := by
  show StableHlo.after hostOps4 (V8 m (outs m) c) = _; rw [V8_eq]
theorem V10_eq (c : Dev nD) : V10 m (outs m) c = B10 m c := by
  show Function.update (V9 m (outs m) c) main_v104 (outs m 10 main_v104 c) = _; rw [outs_v104, V9_eq]
theorem V11_eq (c : Dev nD) : V11 m (outs m) c = B11 m c := by
  show StableHlo.after hostOps5 (V10 m (outs m) c) = _; rw [V10_eq]

def pdats : (p : Fin 5) → (c : Dev nD) → Dat τ (Elt F) Unit ℕ (UR sig nD τ) ℕ (cfgs p) c
  | ⟨0, _⟩ => fun c => dat0 (P1 m) c
  | ⟨1, _⟩ => fun c => dat1 (P3 m) c
  | ⟨2, _⟩ => fun c => dat2 (P5 m) c
  | ⟨3, _⟩ => fun c => dat3 (P7 m) c
  | ⟨4, _⟩ => fun c => dat4 (P9 m) c

end Cert.KernelIdeal.Hand

end
-- ==== Proof.KiSegs.lean ====
import proofs.«405071_j1614907703383_1_alg».proof.Proof.KiChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Ee : Fin 6 → Dev nD → sProp 𝕄 := fun _ c =>
  iprop((∃ r, prngReg c r) ∗ ∃ W, owes (c : Thread nD τ) (0 : CellTallies nD τ sig Unit) W)

theorem plain : ∀ (p : Fin 5) (c : Dev nD),
    (∀ w, (pdats m p c).q w = fullShare) ∧ (∀ t, (pdats m p c).owed t = 0) ∧ (pdats m p c).recorded 0 = Set.univ
  | ⟨0, _⟩, _ | ⟨1, _⟩, _ | ⟨2, _⟩, _ | ⟨3, _⟩, _ | ⟨4, _⟩, _ => ⟨fun _ => rfl, fun _ => rfl, rfl⟩

section Region

variable {p : Fin 5} (lf : Pipeline.LaunchFacts (nD := nD) (τ := τ) cfgs p) (V : Dev nD → Valuation τ sig (Elt F))
  (o : Fin (cfgs p).W)

/-- The contents at a region's exit: the entry contents `V`, updated at window `o`'s array. -/
abbrev exitV (c : Dev nD) : Valuation τ sig (Elt F) :=
  Function.update (V c) (Proc.devRef .tc (Pipeline.arrRef (cfgs p).spec o)) ((pdats m p c).arrAt o (cfgs p).N)

variable (hA : ∀ c w, (pdats m p c).A w = V c (Proc.devRef .tc (Pipeline.arrRef (cfgs p).spec w)))
  (ho : ∀ w, w ≠ o → ((cfgs p).win w).isOut = false)

include lf hA ho in
/-- Each array's final contents are the exit contents' value at it: the arrays are distinct and only `o`'s changes. -/
theorem hF_of (c : Dev nD) (w : Fin (cfgs p).W) :
    (pdats m p c).arrAt w (cfgs p).N = exitV m V o c (Proc.devRef .tc (Pipeline.arrRef (cfgs p).spec w)) := by
  by_cases h : w = o
  · subst h; exact (Function.update_self (f := V c) _ _).symm
  · rw [exitV, Function.update_of_ne (StableHlo.devRef_ne_of_ne fun e => h (lf.win.arr_inj e)), (pdats m p c).arrAt_in w (ho w h)]
    exact hA c w

def regOf (hbody : ∀ c, BodyObligation (pdats m p c) defs₀ Variants.none () Set.univ)
    (hin : ∀ c (PH : sProp 𝕄), iprop((∃ r, prngReg c r) ∗ PH ∗ Pipeline.scopedRest (cfgs p).spec c) ⊢ (pdats m p c).Φ 0)
    (hout : ∀ c, (pdats m p c).Φ (Fin.last (cfgs p).N) ⊢ iprop((∃ r, prngReg c r) ∗ Pipeline.ownSems0 (fun k : PEmpty => k.elim) c
      ∗ Pipeline.scopedRest (cfgs p).spec c)) :
    Pipeline.RegionSeg (pcfgs (F := F)) adm (pdats m) () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ (fun _ => ∅) (fun _ _ => 0) p fun c => (plain m p c).2.1
  pre c := iprop(StableHlo.held (c : Thread nD τ) (Pipeline.ucRefs τ sig) (V c) ∗ Ee 0 c)
  post c := iprop(StableHlo.held (c : Thread nD τ) (Pipeline.ucRefs τ sig) (exitV m V o c) ∗ Ee 0 c)
  X c := iprop(∃ r, prngReg c r)
  Y c := iprop(∃ r, prngReg c r)
  Z c := Pipeline.unscopedRest (cfgs p).spec c (fun b => V c b)
  hentry c := by
    have hsplit := Pipeline.arrays_of_unscopedBufs (p := p) (pcfgs (F := F)) adm (pdats m) lf.win lf.arr_whole c
      ((pdats m p c).share_full (plain m p c).1) (fun b => V c b) (hA c)
    rw [Pipeline.unscopedBufs_held] at hsplit
    unfold Pipeline.prefHeld Pipeline.Dat.owesAt Pipeline.owesWithin
    rw [show (Finset.univ : Finset (Fin 0)) = ∅ from rfl, BI.bigSep_empty, (plain m p c).2.1]
    iintro ⟨⟨Hub, Hp, %W, HO⟩, -⟩
    icases hsplit $$ Hub with ⟨Ha, Hrest⟩
    imodintro
    iframe Ha Hp Hrest
    isplitr; · iempintro
    iexists W; iframe HO
    ipureintro; exact fun _ _ => Or.inl ((plain m p c).2.2 ▸ trivial)
  hin c := hin c _
  hout := hout
  hexit c := by
    have hjoin := Pipeline.unscopedBufs_of_arrays (p := p) (pcfgs (F := F)) adm lf.win lf.arr_whole c (pdats m)
      ((pdats m p c).share_full (plain m p c).1) (fun b => V c b) (fun b => exitV m V o c b) ((pdats m p c).arrAt · (cfgs p).N)
      (hF_of m lf V o hA ho c) fun b hb => Function.update_of_ne (StableHlo.devRef_ne_of_ne fun e =>
        hb (Finset.mem_image.mpr ⟨o, Finset.mem_univ _, e.symm⟩)) _ _
    rw [Pipeline.unscopedBufs_held] at hjoin
    unfold Pipeline.Dat.owesAt Pipeline.owesWithin
    rw [(plain m p c).2.1]
    iintro ⟨Ha, ⟨%W, -, HO⟩, HY, Hrest⟩
    imodintro
    isplitl [Ha Hrest]; · iapply hjoin; iframe
    isplitl [HY]; · iexact HY
    iexists W; iexact HO

end Region

section
variable {gr W : ℕ} (spec : Fin W → Pipeline.WinSpec sig gr) (c : Dev nD)

theorem hinA (PH : sProp 𝕄) : iprop((∃ r, prngReg c r) ∗ PH ∗ Pipeline.scopedRest spec c) ⊢ Pipeline.ΦA spec c := by
  unfold Pipeline.ΦA; iintro ⟨Hp, -, Hr⟩; iframe

theorem houtA : (Pipeline.ΦA spec c : sProp 𝕄) ⊢ iprop((∃ r, prngReg c r) ∗ Pipeline.ownSems0 (fun k : PEmpty => k.elim) c
    ∗ Pipeline.scopedRest spec c) := by
  rw [Pipeline.ownSems0_none]; unfold Pipeline.ΦA; iintro ⟨Hr, Hp⟩; iframe; iempintro

end

def reg0 : Pipeline.RegionSeg (pcfgs (F := F)) adm (pdats m) () defs₀ Variants.none (fun _ => ∅) (fun _ _ => 0) 0 :=
  regOf m launch0 (B1 m) 5 (A_eq0 (P1 m)) (by decide) (body_obligation0 (P1 m)) (hinA _) (houtA _)

theorem hpre0 (c : Dev nD) : iprop(StableHlo.held (c : Thread nD τ) (Pipeline.ucRefs τ sig) (V1 m c) ∗ Ee 0 c) ⊢ (reg0 m).pre c := .rfl
theorem hpost0 (c : Dev nD) : (reg0 m).post c ⊢ iprop(StableHlo.held (c : Thread nD τ) (Pipeline.ucRefs τ sig) (V2 m (outs m) c) ∗ Ee 1 c) := by
  rw [V2_eq]; exact .rfl

def reg1 : Pipeline.RegionSeg (pcfgs (F := F)) adm (pdats m) () defs₀ Variants.none (fun _ => ∅) (fun _ _ => 0) 1 :=
  regOf m launch1 (B3 m) 5 (A_eq1 (P3 m)) (by decide) (body_obligation1 (P3 m)) (hinA _) (houtA _)

theorem hpre1 (c : Dev nD) : iprop(StableHlo.held (c : Thread nD τ) (Pipeline.ucRefs τ sig) (V3 m (outs m) c) ∗ Ee 1 c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ Ee 2 c) := by
  rw [V4_eq]; exact .rfl

def reg2 : Pipeline.RegionSeg (pcfgs (F := F)) adm (pdats m) () defs₀ Variants.none (fun _ => ∅) (fun _ _ => 0) 2 :=
  regOf m launch2 (B5 m) 5 (A_eq2 (P5 m)) (by decide) (body_obligation2 (P5 m)) (hinA _) (houtA _)

theorem hpre2 (c : Dev nD) : iprop(StableHlo.held (c : Thread nD τ) (Pipeline.ucRefs τ sig) (V5 m (outs m) c) ∗ Ee 2 c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ Ee 3 c) := by
  rw [V6_eq]; exact .rfl

def reg3 : Pipeline.RegionSeg (pcfgs (F := F)) adm (pdats m) () defs₀ Variants.none (fun _ => ∅) (fun _ _ => 0) 3 :=
  regOf m launch3 (B7 m) 5 (A_eq3 (P7 m)) (by decide) (body_obligation3 (P7 m)) (hinA _) (houtA _)

theorem hpre3 (c : Dev nD) : iprop(StableHlo.held (c : Thread nD τ) (Pipeline.ucRefs τ sig) (V7 m (outs m) c) ∗ Ee 3 c) ⊢ (reg3 m).pre c := by
  rw [V7_eq]; exact .rfl
theorem hpost3 (c : Dev nD) : (reg3 m).post c ⊢ iprop(StableHlo.held (c : Thread nD τ) (Pipeline.ucRefs τ sig) (V8 m (outs m) c) ∗ Ee 4 c) := by
  rw [V8_eq]; exact .rfl

def reg4 : Pipeline.RegionSeg (pcfgs (F := F)) adm (pdats m) () defs₀ Variants.none (fun _ => ∅) (fun _ _ => 0) 4 :=
  regOf m launch4 (B9 m) 2 (A_eq4 (P9 m)) (by decide) (body_obligation4 (P9 m)) (hin4 (P9 m)) (hout4 (P9 m))

theorem hpre4 (c : Dev nD) : iprop(StableHlo.held (c : Thread nD τ) (Pipeline.ucRefs τ sig) (V9 m (outs m) c) ∗ Ee 4 c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ Ee 5 c) := by
  rw [V10_eq]; exact .rfl

end Cert.KernelIdeal.Hand

end
-- ==== Proof.KiFrameRes.lean ====
import proofs.«405071_j1614907703383_1_alg».proof.Proof.Gen.KernelIdeal.Regions

set_option maxRecDepth 1216

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
theorem frame_cond_res {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c)) :
    θ_run defs (onTc (τ := τ) (main (F := F))) ⟨m, fun _ => 0, ρ⟩ (fun r => ∀ c : Dev nD,
      r.2.mem ((c.tc : Thread nD τ).loc main_v109) = V11 m outs c main_v109
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, hpre2 c, hpost2 c, hpre3 c, hpost3 c, hpre4 c, hpost4 c, sep_mono .rfl (hE5 c)⟩)
    (hinit := ?_) (QY := fun c s => s.mem ((c.tc : Thread nD τ).loc main_v109) = V11 m outs c main_v109 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v109) (Finset.mem_filter.mpr ⟨StableHlo.devRef_mem_tcRefs main_v109, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c)⟩
    · iexact HSI

end Cert.KernelIdeal.Hand

end
-- ==== Proof.KiRun.lean ====
import proofs.«405071_j1614907703383_1_alg».proof.Proof.KiSegs
import proofs.«405071_j1614907703383_1_alg».proof.Proof.KiFrameRes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_first :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts (fun _ : GSem nD τ sig => (∅ : Finset Unit)) (fun _ _ => (0 : ℕ)))
      ⊢ (|={Set.univ}=> bigSep Finset.univ (Ee (F := F) 0) : sProp 𝕄) :=
  Pipeline.initEach (fun _ : GSem nD τ sig => (∅ : Finset Unit)) (fun _ _ => (0 : ℕ)) fun c => by
    iintro ⟨⟨-, HO, -, Hp, -⟩, -⟩
    imodintro
    isplitl [Hp]; · iexists _; iexact Hp
    iexists ∅; iexact HO

theorem rest_last (c : Dev nD) : Ee (F := F) 5 c ⊢ (iprop(∃ W, owes (c : Thread nD τ) (0 : CellTallies nD τ sig Unit) W) : sProp 𝕄) := by
  iintro ⟨-, HO⟩; iexact HO

set_option backward.isDefEq.respectTransparency.types false in

theorem run_res : θ_run defs (onTc (τ := τ) (main (F := F))) ⟨m, fun _ => 0, ρ⟩ (fun r => ∀ c : Dev nD,
      r.2.mem ((c.tc : Thread nD τ).loc main_v109) = B11 m c main_v109
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (congrFun (V11_eq m c) main_v109), (h c).2⟩)
    (frame_cond_res m (emb₁ : Emb (UR sig nD τ) 𝕄) () Variants.none (fun _ => ∅) (fun _ _ => 0) (fun _ _ => rfl) ρ (outs m) (pdats m)
      (0 : Dev nD → CellTallies nD τ sig Unit) (fun _ => (BI.emp : sProp 𝕄))
      (initOf (Pipeline.cells cfgs cellOf_inj) (Pipeline.launchToks cfgs cellOf_inj)) launch_ghost
      (Ee (F := F)) (rest_first ρ) rest_last
      (reg0 m) (hpre0 m) (hpost0 m) (reg1 m) (hpre1 m) (hpost1 m) (reg2 m) (hpre2 m) (hpost2 m)
      (reg3 m) (hpre3 m) (hpost3 m) (reg4 m) (hpre4 m) (hpost4 m))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_res m ρ)

end Cert.KernelIdeal.Hand

end
-- ==== Proof.RefFrame.lean ====
import proofs.«405071_j1614907703383_1_alg».proof.Defs
import proofs.«405071_j1614907703383_1_alg».proof.Proof.Gen.ReferenceIdeal
import proofs.«405071_j1614907703383_1_alg».proof.Proof.Gen.Pre_finite_inputs
import proofs.«405071_j1614907703383_1_alg».proof.Proof.RefRunP

noncomputable section

open Idealize.ShloMosaic Idealize.ShloMosaic.TcCoe Idealize.SL.Sem

namespace Cert.Proof.RefFrame

theorem frame_ri : @Cert.frame_ReferenceIdeal Cert.ReferenceIdeal.Gen.facts Cert.Pre_finite_inputs.Gen.facts := fun m ρ _ =>
  Cert.ReferenceIdeal.ValueP.run_args (F := Ideal) m ρ

end Cert.Proof.RefFrame

end
-- ==== Proof.Spec.lean ====
import Idealize.ShloMosaic.PureOps.Ideal.Laws
import Idealize.ShloMosaic.Lib.ValueIdx

noncomputable section

namespace Cert.Spec

open Idealize.ShloMosaic Idealize.ShloMosaic.ValueIdx

abbrev SX : Shape := ⟨2, ![50000, 128]⟩
abbrev SW : Shape := ⟨3, ![4, 128, 128]⟩
abbrev SB : Shape := ⟨2, ![4, 128]⟩
abbrev SP : Shape := ⟨2, ![64, 128]⟩
abbrev SG : Shape := ⟨1, ![64]⟩
abbrev SN : Shape := ⟨1, ![50000]⟩

def mk2 {a b : Nat} (f : Fin a → Fin b → EReal) : (⟨2, ![a, b]⟩ : Shape).Idx → EReal := fun i => f (i 0) (i 1)

theorem mk2_ix2 {a b : Nat} (f : Fin a → Fin b → EReal) (p : Fin a) (q : Fin b) : mk2 f (ix2 p q) = f p q := rfl

theorem ext2 {a b : Nat} {A B : (⟨2, ![a, b]⟩ : Shape).Idx → EReal} (h : ∀ p q, A (ix2 p q) = B (ix2 p q)) : A = B := by
  funext i; rw [eq_ix2 i]; exact h _ _

def act (y : EReal) : EReal :=
  Scalar.select (FloatOps.cmpf (F := Ideal) (φ := .f32) .oge y (Ideal.ofBits .f32 0x00000000#32)) y
    (Ideal.ofBits .f32 0x3C23D70A#32 * y)

def lin (l : Fin 4) (x agg : SX.Idx → EReal) (Wl : SW.Idx → EReal) (bl : SB.Idx → EReal) (Wr : SW.Idx → EReal)
    (n : Fin 50000) (d : Fin 128) : EReal :=
  (∑ k : Fin 128, agg (ix2 n k) * Wl (ix3 l d k)) + bl (ix2 l d) + ∑ k : Fin 128, x (ix2 n k) * Wr (ix3 l d k)

def layer (l : Fin 4) (x agg : SX.Idx → EReal) (Wl : SW.Idx → EReal) (bl : SB.Idx → EReal) (Wr : SW.Idx → EReal) :
    SX.Idx → EReal := mk2 fun n d => act (lin l x agg Wl bl Wr n d)

def layerRes (l : Fin 4) (x agg : SX.Idx → EReal) (Wl : SW.Idx → EReal) (bl : SB.Idx → EReal) (Wr : SW.Idx → EReal) :
    SX.Idx → EReal := mk2 fun n d => x (ix2 n d) + act (lin l x agg Wl bl Wr n d)

def sel (batch : SN.Idx → BitVec 32) (n : Fin 50000) (g : Fin 64) : Prop := (batch (ix1 n)).toInt = (g.val : Int)

instance (batch : SN.Idx → BitVec 32) (n : Fin 50000) (g : Fin 64) : Decidable (sel batch n g) := by unfold sel; infer_instance

def poolSum (x : SX.Idx → EReal) (batch : SN.Idx → BitVec 32) (g : Fin 64) (d : Fin 128) : EReal :=
  ∑ n ∈ Finset.univ.filter (fun n : Fin 50000 => sel batch n g), x (ix2 n d)

def cntSum (batch : SN.Idx → BitVec 32) (g : Fin 64) : EReal :=
  ∑ n ∈ Finset.univ.filter (fun n : Fin 50000 => sel batch n g), (Ideal.ofBits .f32 0x3F800000#32 : EReal)

abbrev SWT : Shape := ⟨2, ![128, 128]⟩
abbrev SB1 : Shape := ⟨2, ![1, 128]⟩
abbrev SOH : Shape := ⟨2, ![50000, 64]⟩

def one : EReal := Ideal.ofBits .f32 0x3F800000#32

def linT (x agg : SX.Idx → EReal) (wlT wrT : SWT.Idx → EReal) (b : SB1.Idx → EReal) (n : Fin 50000) (d : Fin 128) : EReal :=
  (∑ k : Fin 128, agg (ix2 n k) * wlT (ix2 k d)) + b (ix2 0 d) + ∑ k : Fin 128, x (ix2 n k) * wrT (ix2 k d)

def layerT (x agg : SX.Idx → EReal) (wlT wrT : SWT.Idx → EReal) (b : SB1.Idx → EReal) : SX.Idx → EReal :=
  mk2 fun n d => act (linT x agg wlT wrT b n d)

def layerResT (x agg : SX.Idx → EReal) (wlT wrT : SWT.Idx → EReal) (b : SB1.Idx → EReal) : SX.Idx → EReal :=
  mk2 fun n d => x (ix2 n d) + act (linT x agg wlT wrT b n d)

theorem linT_eq (l : Fin 4) (x agg : SX.Idx → EReal) (Wl : SW.Idx → EReal) (bl : SB.Idx → EReal) (Wr : SW.Idx → EReal)
    (wlT wrT : SWT.Idx → EReal) (b : SB1.Idx → EReal)
    (hl : ∀ k d, wlT (ix2 k d) = Wl (ix3 l d k)) (hr : ∀ k d, wrT (ix2 k d) = Wr (ix3 l d k))
    (hb : ∀ d, b (ix2 0 d) = bl (ix2 l d)) (n : Fin 50000) (d : Fin 128) :
    linT x agg wlT wrT b n d = lin l x agg Wl bl Wr n d := by
  unfold linT lin
  simp only [hl, hr, hb]

def poolT (x : SX.Idx → EReal) (oh : SOH.Idx → EReal) : SP.Idx → EReal :=
  mk2 fun g d => ∑ n : Fin 50000, oh (ix2 n g) * x (ix2 n d)

def aggOf (S : (SX.Idx → EReal) → SX.Idx → EReal) (CNT : SN.Idx → EReal) (x : SX.Idx → EReal) : SX.Idx → EReal :=
  mk2 fun n k => Ideal.div (S x (ix2 n k)) (max (CNT (ix1 n)) one)

def aggMul (S : (SX.Idx → EReal) → SX.Idx → EReal) (CNT : SN.Idx → EReal) (x : SX.Idx → EReal) : SX.Idx → EReal :=
  mk2 fun n k => S x (ix2 n k) * Ideal.div one (max (CNT (ix1 n)) one)

theorem one_eq : one = (1 : EReal) := by
  unfold one; simp [Ideal.ofBits, Ideal.ieee]
  first
    | (rw [← EReal.coe_mul]; norm_num)
    | (norm_cast; norm_num)
    | (push_cast; norm_num)

theorem aggMul_eq (S : (SX.Idx → EReal) → SX.Idx → EReal) (CNT : SN.Idx → EReal) (x : SX.Idx → EReal) :
    aggMul S CNT x = aggOf S CNT x := by
  unfold aggMul aggOf
  congr 1; funext n k
  have hne : max (CNT (ix1 n)) one ≠ 0 := by
    have h1 : (1 : EReal) ≤ max (CNT (ix1 n)) one := by rw [one_eq]; exact le_max_right _ _
    intro h0; rw [h0] at h1; exact absurd h1 (by norm_num)
  unfold Ideal.div
  rw [if_neg hne, if_neg hne, one_eq, one_mul]

def net (S : (SX.Idx → EReal) → SX.Idx → EReal) (CNT : SN.Idx → EReal) (x0 : SX.Idx → EReal)
    (Wl : SW.Idx → EReal) (bl : SB.Idx → EReal) (Wr : SW.Idx → EReal) : SX.Idx → EReal :=
  let x1 := layer 0 x0 (aggOf S CNT x0) Wl bl Wr
  let x2 := layer 1 x1 (aggOf S CNT x1) Wl bl Wr
  let x3 := layerRes 2 x2 (aggOf S CNT x2) Wl bl Wr
  layerRes 3 x3 (aggOf S CNT x3) Wl bl Wr

def out (X : SX.Idx → EReal) (batch : SN.Idx → BitVec 32) : SP.Idx → EReal :=
  mk2 fun g d => Ideal.div (poolSum X batch g d) (max (cntSum batch g) one)

end Cert.Spec

end
-- ==== Proof.KiHostDefs.lean ====
import proofs.«405071_j1614907703383_1_alg».proof.Proof.KiChain
import proofs.«405071_j1614907703383_1_alg».proof.Proof.Spec

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

def srcB (c : Dev nD) : IVec S600000 32 := B1 m c main_v1

def dstB (c : Dev nD) : IVec S600000 32 := B1 m c main_v3

def SK (c : Dev nD) (x : Vec Ideal S50000x128 .f32) : Vec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstB m c))
    (Host.gather gather_S50000x128_S600000x1_S600000x128_1_0_n_n_0_1_1128 x
      (broadcastInDim S600000x1 ![0] bcast_S600000_S600000x1_0
        (select (cmpi .slt (srcB m c) (broadcastInDim S600000 ![] bcast_S_S600000 (constantI S_ 32 0#32)))
          (addi (srcB m c) (broadcastInDim S600000 ![] bcast_S_S600000 (constantI S_ 32 50000#32))) (srcB m c))))

def CNTK (c : Dev nD) : Vec Ideal S50000 .f32 :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 (dstB m c))
    (broadcastInDim S600000 ![] bcast_S_S600000 (constant (F := Ideal) S_ .f32 0x3F800000#32))

def invK (c : Dev nD) : Vec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (CNTK m c) (broadcastInDim S50000 ![] bcast_S_S50000 (constant (F := Ideal) S_ .f32 0x3F800000#32))))

structure Carried (c : Dev nD) (W : Valuation τ sig (Elt Ideal)) : Prop where
  a0 : W main_arg0 = m ((c : Thread nD τ).loc main_arg0)
  a2 : W main_arg2 = m ((c : Thread nD τ).loc main_arg2)
  a3 : W main_arg3 = m ((c : Thread nD τ).loc main_arg3)
  a4 : W main_arg4 = m ((c : Thread nD τ).loc main_arg4)
  a5 : W main_arg5 = m ((c : Thread nD τ).loc main_arg5)
  v1 : W main_v1 = srcB m c
  v3 : W main_v3 = dstB m c
  v12 : W main_v12 = invK m c
  v13 : W main_v13 = B1 m c main_v13
  v14 : W main_v14 = B1 m c main_v14

end Cert.KernelIdeal.Hand

end
-- ==== Proof.LibPlainMatmul.lean ====
import Idealize.ShloMosaic.PureOps.Ideal.Laws
import Idealize.ShloMosaic.Lib.ValueIdx

noncomputable section

namespace PlainMatmul

open Idealize.ShloMosaic Idealize.ShloMosaic.ValueIdx

theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_

  have hc := contrEquiv1_symm_val (DotDims.plain m k n) k rfl rfl c

  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc

  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

end PlainMatmul

end
-- ==== Proof.KiAffVal0.lean ====
import proofs.«405071_j1614907703383_1_alg».proof.Proof.KiAff0
import proofs.«405071_j1614907703383_1_alg».proof.Proof.Spec
import proofs.«405071_j1614907703383_1_alg».proof.Proof.LibPlainMatmul
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem pay0_at (x0 x1 : Vec Ideal S5000x128 .f32) (x2 x3 : Vec Ideal S128x128 .f32) (x4 : Vec Ideal S1x128 .f32)
    (r : Fin 5000) (d : Fin 128) :
    k0_pay1 x0 x1 x2 x3 x4 (ix2 r d)
      = Cert.Spec.act ((∑ k : Fin 128, x1 (ix2 r k) * x2 (ix2 k d)) + x4 (ix2 0 d) + ∑ k : Fin 128, x0 (ix2 r k) * x3 (ix2 k d)) := by
  unfold k0_pay1 Cert.Spec.act
  simp only [shapeCast_self, select_apply, cmpf_apply, mulf_apply, addf_apply, broadcast_apply, truncf_apply,
    PlainMatmul.matmul_zero_apply_of_eq dot_S5000x128_S128x128_S5000x128_1_0_0_1_n_n rfl,
    broadcastTo_apply x4 broadcasts_S1x128_S5000x128 (ix2 r d) (ix2 0 d) fun a => by match a with | ⟨0, _⟩ => rfl | ⟨1, _⟩ => rfl]
  rfl

section Value0
variable (V : (c : Dev nD) → (b : Ref sig .tc) → Buf (Elt Ideal) ((c : Thread nD τ).loc b))

theorem hz0 : (![0, 0] : Fin 2 → Nat) = fun _ => 0 := funext fun a => by fin_cases a <;> rfl

/-- Block indices: the node, neighbour and output windows sit at block (t, 0), the weights and the bias at (0, 0). -/
theorem bidx0 : ∀ (t : Fin grid0.N) (w : Fin 6) (a : Fin (cfg0.win w).shape.rank),
    (cfg0.win w).index t a = if a.val = 0 ∧ (w.val < 2 ∨ w.val = 5) then t.val else 0 := by decide +kernel

/-- So an element of window w's block at point t sits in the array 5000 t rows down for those three windows, in place for the others. -/
theorem emb0 (w : Fin cfg0.W) (t : Fin cfg0.N) (j : ((cfg0.win w).xblock (grid0.coords t)).Idx) (a : Fin (cfg0.win w).shape.rank) :
    (((cfg0.win w).rect t).emb j a : ℕ)
      = j a + (if a.val = 0 ∧ (w.val < 2 ∨ w.val = 5) then t.val else 0) * (cfg0.win w).size a := by
  rw [Window.rect_emb_val, bidx0, Nat.add_comm]

/-- Row n of the output array lies in the block of point n / 5000, at row n % 5000. -/
theorem covered0_5 (i : S50000x128.Idx) :
    ∃ t : Fin cfg0.N, (cfg0.win 5).flush t = true ∧ i ∈ ((cfg0.win 5).blk t).view.set :=
  let t : Fin cfg0.N := ⟨(i 0).val / 5000, lt_of_lt_of_eq (Nat.div_lt_of_lt_mul (i 0).isLt) N_0.symm⟩
  let y : S5000x128.Idx := ix2 ⟨(i 0).val % 5000, Nat.mod_lt _ (by decide)⟩ (i 1)
  ⟨t, flush0_5 t, (Shape.idx_ext₂ ((emb0 5 t y 0).trans (Nat.mod_add_div' _ _)) (emb0 5 t y 1) :
    ((cfg0.win 5).blk t).view.emb y = i) ▸ ((cfg0.win 5).blk t).view.emb_mem_set y⟩

/-- Row r of the node and neighbour blocks at point t is row n = 5000 t + r of their arrays. -/
theorem row0 (c : Dev nD) (t : Fin cfg0.N) (r : Fin 5000) (n : Fin 50000) (hn : (n : ℕ) = r + t * 5000) (k : Fin 128) :
    iblk0 V c 0 t (ix2 r k) = V c (Pipeline.arrRef spec0 0) (ix2 n k)
      ∧ iblk0 V c 1 t (ix2 r k) = V c (Pipeline.arrRef spec0 1) (ix2 n k) :=
  ⟨congrArg (V c _) (Shape.idx_ext₂ (y := ix2 n k) ((emb0 0 t (ix2 r k) 0).trans hn.symm) (emb0 0 t (ix2 r k) 1)),
    congrArg (V c _) (Shape.idx_ext₂ (y := ix2 n k) ((emb0 1 t (ix2 r k) 0).trans hn.symm) (emb0 1 t (ix2 r k) 1))⟩

/-- The weights' and the bias's blocks are their arrays. -/
theorem blk0 (c : Dev nD) (t : Fin cfg0.N) : iblk0 V c 2 t = V c (Pipeline.arrRef spec0 2)
    ∧ iblk0 V c 3 t = V c (Pipeline.arrRef spec0 3) ∧ iblk0 V c 4 t = V c (Pipeline.arrRef spec0 4) :=
  ⟨funext fun y : S128x128.Idx => congrArg (V c _) (Shape.idx_ext₂ (y := y) (emb0 2 t y 0) (emb0 2 t y 1)),
    funext fun y : S128x128.Idx => congrArg (V c _) (Shape.idx_ext₂ (y := y) (emb0 3 t y 0) (emb0 3 t y 1)),
    funext fun y : S1x128.Idx => congrArg (V c _) (Shape.idx_ext₂ (y := y) (emb0 4 t y 0) (emb0 4 t y 1))⟩

/-- The payload of the five blocks at point t is the layer of the five arrays at the element under the block's entry. -/
theorem pay0_blk (c : Dev nD) (t : Fin cfg0.N) (r : Fin 5000) (d : Fin 128) :
    k0_pay1 (iblk0 V c 0 t) (iblk0 V c 1 t) (iblk0 V c 2 t) (iblk0 V c 3 t) (iblk0 V c 4 t) (ix2 r d)
      = Cert.Spec.layerT (V c (Pipeline.arrRef spec0 0)) (V c (Pipeline.arrRef spec0 1))
      (V c (Pipeline.arrRef spec0 2)) (V c (Pipeline.arrRef spec0 3)) (V c (Pipeline.arrRef spec0 4)) (((cfg0.win 5).blk t).view.emb (ix2 r d)) := by
  obtain ⟨n, hn, he⟩ : ∃ n : Fin 50000, (n : ℕ) = r + t * 5000 ∧ ((cfg0.win 5).blk t).view.emb (ix2 r d) = ix2 n d :=
    ⟨_, emb0 5 t (ix2 r d) 0, Shape.idx_ext₂ rfl (emb0 5 t (ix2 r d) 1)⟩
  obtain ⟨hl, hr, hb⟩ := blk0 V c t
  rw [pay0_at, he, hl, hr, hb]
  simp only [fun k => (row0 V c t r n hn k).1, fun k => (row0 V c t r n hn k).2]
  rfl

theorem arrAt0_5 (c : Dev nD) :
    (dat0 V c).arrAt 5 cfg0.N = Cert.Spec.layerT (V c (Pipeline.arrRef spec0 0)) (V c (Pipeline.arrRef spec0 1))
      (V c (Pipeline.arrRef spec0 2)) (V c (Pipeline.arrRef spec0 3)) (V c (Pipeline.arrRef spec0 4)) :=
  (dat0 V c).arrAt_eq_of_cover 5 _ (fun t _ => by
    show (cfg0.win 5).cut (grid0.coords t) ((dat0 V c).after 5 t) = _
    rw [after0_5]; unfold out0_5
    rw [View.canon_unit_zero hz0]
    simp only [View.ld_unit_zero (S := S5000x128) hz0, View.ld_unit_zero (S := S128x128) hz0, View.ld_unit_zero (S := S1x128) hz0]
    refine funext fun j : S5000x128.Idx => ?_
    obtain ⟨r, d, rfl⟩ : ∃ (r : Fin 5000) (d : Fin 128), j = ix2 r d := ⟨j 0, j 1, eq_ix2 j⟩
    exact pay0_blk V c t r d) covered0_5

end Value0

end Cert.KernelIdeal.Hand

end
-- ==== Proof.KiVal0.lean ====
import proofs.«405071_j1614907703383_1_alg».proof.Proof.KiHostDefs
import proofs.«405071_j1614907703383_1_alg».proof.Proof.KiAffVal0
import Idealize.ShloMosaic.Lib.Pipeline.Value
import Idealize.ShloMosaic.Lib.ValueIdx
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

theorem V1_v13_eq (c : Dev nD) : (V1 m c main_v13 : S4x128x128.Idx → EReal)
    = transpose S4x128x128 [0, 2, 1] (m ((c : Thread nD τ).loc main_arg3)) transposes_S4x128x128_S4x128x128_0_2_1 := by
  show (StableHlo.after hostOps0 (V0 m c) main_v13 : S4x128x128.Idx → EReal) = _
  after_results

theorem V1_v14_eq (c : Dev nD) : (V1 m c main_v14 : S4x128x128.Idx → EReal)
    = transpose S4x128x128 [0, 2, 1] (m ((c : Thread nD τ).loc main_arg5)) transposes_S4x128x128_S4x128x128_0_2_1 := by
  show (StableHlo.after hostOps0 (V0 m c) main_v14 : S4x128x128.Idx → EReal) = _
  after_results

theorem B1_v13 (c : Dev nD) (l : Fin 4) (k d : Fin 128) :
    (B1 m c main_v13 : S4x128x128.Idx → EReal) (ix3 l k d) = m ((c : Thread nD τ).loc main_arg3) (ix3 l d k) := by
  show (V1 m c main_v13 : S4x128x128.Idx → EReal) _ = _
  rw [V1_v13_eq]
  exact transpose_apply _ _ _ _ _ (fun b => by fin_cases b <;> rfl)

theorem B1_v14 (c : Dev nD) (l : Fin 4) (k d : Fin 128) :
    (B1 m c main_v14 : S4x128x128.Idx → EReal) (ix3 l k d) = m ((c : Thread nD τ).loc main_arg5) (ix3 l d k) := by
  show (V1 m c main_v14 : S4x128x128.Idx → EReal) _ = _
  rw [V1_v14_eq]
  exact transpose_apply _ _ _ _ _ (fun b => by fin_cases b <;> rfl)

theorem V1_v12_eq (c : Dev nD) : (V1 m c main_v12 : S50000x1.Idx → EReal) = invK m c := by
  unfold invK CNTK dstB
  show (StableHlo.after hostOps0 (V0 m c) main_v12 : S50000x1.Idx → EReal) =
    broadcastInDim S50000x1 ![0] bcast_S50000_S50000x1_0
    (Host.divf (F := Ideal) (broadcastInDim S50000 ![] bcast_S_S50000 (constant (F := Ideal) S_ .f32 0x3F800000#32))
      (maximumf (Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 (StableHlo.after hostOps0 (V0 m c) main_v3 : IVec S600000 32))
    (broadcastInDim S600000 ![] bcast_S_S600000 (constant (F := Ideal) S_ .f32 0x3F800000#32))) (broadcastInDim S50000 ![] bcast_S_S50000 (constant (F := Ideal) S_ .f32 0x3F800000#32))))
  after_results_simp
  all_goals rfl

theorem carried_B1 (c : Dev nD) : Carried m c (B1 m c) where
  a0 := (V1_of m c main_arg0 (by decide)).trans rfl
  a2 := (V1_of m c main_arg2 (by decide)).trans rfl
  a3 := (V1_of m c main_arg3 (by decide)).trans rfl
  a4 := (V1_of m c main_arg4 (by decide)).trans rfl
  a5 := (V1_of m c main_arg5 (by decide)).trans rfl
  v1 := rfl
  v3 := rfl
  v12 := V1_v12_eq m c
  v13 := rfl
  v14 := rfl

theorem rd_v19 (c : Dev nD) : @Eq (IVec S600000 32) (StableHlo.after hostOps0 (V0 m c) main_v19)
    (select (cmpi .slt (StableHlo.after hostOps0 (V0 m c) main_v1 : IVec S600000 32) (broadcastInDim S600000 ![] bcast_S_S600000 (constantI S_ 32 0#32)))
          (addi (StableHlo.after hostOps0 (V0 m c) main_v1 : IVec S600000 32) (broadcastInDim S600000 ![] bcast_S_S600000 (constantI S_ 32 50000#32))) (StableHlo.after hostOps0 (V0 m c) main_v1 : IVec S600000 32)) := by
  after_results_simp
  all_goals rfl

theorem rd_v21 (c : Dev nD) : @Eq (FVec Ideal S600000x128 .f32) (StableHlo.after hostOps0 (V0 m c) main_v21)
    (Host.gather gather_S50000x128_S600000x1_S600000x128_1_0_n_n_0_1_1128 (m ((c : Thread nD τ).loc main_arg0))
      (broadcastInDim S600000x1 ![0] bcast_S600000_S600000x1_0 (StableHlo.after hostOps0 (V0 m c) main_v19 : IVec S600000 32))) := by
  after_results_simp
  all_goals rfl

theorem rd_v24 (c : Dev nD) : @Eq (FVec Ideal S50000x128 .f32) (StableHlo.after hostOps0 (V0 m c) main_v24)
    (Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (StableHlo.after hostOps0 (V0 m c) main_v3 : IVec S600000 32))
    (StableHlo.after hostOps0 (V0 m c) main_v21 : FVec Ideal S600000x128 .f32)) := by
  after_results_simp
  all_goals rfl

theorem rd_v26 (c : Dev nD) : @Eq (FVec Ideal S50000x128 .f32) (StableHlo.after hostOps0 (V0 m c) main_v26)
    (mulf (F := Ideal) (φ := .f32) (StableHlo.after hostOps0 (V0 m c) main_v24 : FVec Ideal S50000x128 .f32)
      (broadcastInDim S50000x128 ![0, 1] bcast_S50000x1_S50000x128_0_1 (StableHlo.after hostOps0 (V0 m c) main_v12 : FVec Ideal S50000x1 .f32))) := by
  after_results_simp
  all_goals rfl

theorem V1_v26_eq (c : Dev nD) : @Eq (FVec Ideal S50000x128 .f32) (V1 m c main_v26)
    (mulf (F := Ideal) (φ := .f32) (SK m c (m ((c : Thread nD τ).loc main_arg0)))
        (broadcastInDim S50000x128 ![0, 1] bcast_S50000x1_S50000x128_0_1 (invK m c))) := by
  show @Eq (FVec Ideal S50000x128 .f32) (StableHlo.after hostOps0 (V0 m c) main_v26) _
  rw [rd_v26, rd_v24, rd_v21, rd_v19]
  rw [show (StableHlo.after hostOps0 (V0 m c) main_v12 : FVec Ideal S50000x1 .f32) = invK m c from V1_v12_eq m c]
  unfold SK srcB dstB
  rfl

theorem B1_v26 (c : Dev nD) :
    (B1 m c main_v26 : S50000x128.Idx → EReal)
      = Cert.Spec.aggMul (SK m c) (CNTK m c) (m ((c : Thread nD τ).loc main_arg0)) := by
  show (V1 m c main_v26 : S50000x128.Idx → EReal) = _
  rw [V1_v26_eq]
  refine Cert.Spec.ext2 (fun p q => ?_)
  refine congrArg (fun z => SK m c (m ((c : Thread nD τ).loc main_arg0)) (ix2 p q) * z)
    (?_ : broadcastInDim S50000x128 ![0, 1] bcast_S50000x1_S50000x128_0_1 (invK m c) (ix2 p q)
      = Ideal.div Cert.Spec.one (max (CNTK m c (ix1 p)) Cert.Spec.one))
  refine (broadcastInDim_apply _ _ _ (ix2 p q) (ix2 p 0) (fun a => ?_)).trans ?_
  · match a with
    | ⟨0, _⟩ => exact (if_neg (by decide : ¬ (50000 : ℕ) = 1)).symm
    | ⟨1, _⟩ => exact (if_pos rfl).symm
  · unfold invK
    refine (broadcastInDim_apply _ _ _ (ix2 p 0) (ix1 p) (fun a => ?_)).trans ?_
    · match a with
      | ⟨0, _⟩ => exact (if_neg (by decide : ¬ (50000 : ℕ) = 1)).symm
    · refine (hostDivf_apply _ _ _).trans ?_
      refine congrArg₂ Ideal.div ?_ ?_
      · exact (broadcastInDim_scalar_apply _ _ _).trans rfl
      · refine (maximumf_apply _ _ _).trans ?_
        refine congrArg (max (CNTK m c (ix1 p))) ?_
        exact (broadcastInDim_scalar_apply _ _ _).trans rfl

theorem V1_v28_eq (c : Dev nD) : (V1 m c main_v28 : S128x128.Idx → EReal)
    = shapeCast S128x128 (extractStridedSlice S1x128x128 ![0, 0, 0] (V1 m c main_v13 : S4x128x128.Idx → EReal)
        slices_S4x128x128_S1x128x128_0_0_0) shapeCasts_S1x128x128_S128x128 := by
  show (StableHlo.after hostOps0 (V0 m c) main_v28 : S128x128.Idx → EReal)
    = shapeCast S128x128 (extractStridedSlice S1x128x128 ![0, 0, 0] (StableHlo.after hostOps0 (V0 m c) main_v13 : S4x128x128.Idx → EReal)
        slices_S4x128x128_S1x128x128_0_0_0) shapeCasts_S1x128x128_S128x128
  after_results_simp
  all_goals rfl

theorem V1_v30_eq (c : Dev nD) : (V1 m c main_v30 : S128x128.Idx → EReal)
    = shapeCast S128x128 (extractStridedSlice S1x128x128 ![0, 0, 0] (V1 m c main_v14 : S4x128x128.Idx → EReal)
        slices_S4x128x128_S1x128x128_0_0_0) shapeCasts_S1x128x128_S128x128 := by
  show (StableHlo.after hostOps0 (V0 m c) main_v30 : S128x128.Idx → EReal)
    = shapeCast S128x128 (extractStridedSlice S1x128x128 ![0, 0, 0] (StableHlo.after hostOps0 (V0 m c) main_v14 : S4x128x128.Idx → EReal)
        slices_S4x128x128_S1x128x128_0_0_0) shapeCasts_S1x128x128_S128x128
  after_results_simp
  all_goals rfl

theorem V1_v33_eq (c : Dev nD) : (V1 m c main_v33 : S1x128.Idx → EReal)
    = shapeCast S1x128 (shapeCast S128 (extractStridedSlice S1x128 ![0, 0] (m ((c : Thread nD τ).loc main_arg4))
        slices_S4x128_S1x128_0_0) shapeCasts_S1x128_S128) shapeCasts_S128_S1x128 := by
  show (StableHlo.after hostOps0 (V0 m c) main_v33 : S1x128.Idx → EReal) = _
  after_results_simp
  all_goals rfl

theorem slice0_apply (A : S4x128x128.Idx → EReal) (k d : Fin 128) :
    shapeCast S128x128 (extractStridedSlice S1x128x128 ![0, 0, 0] A slices_S4x128x128_S1x128x128_0_0_0)
      shapeCasts_S1x128x128_S128x128 (ix2 k d) = A (ix3 0 k d) := by
  rw [shapeCast_apply _ _ (ix2 k d) (ix3 (0 : Fin 1) k d) (by
    rw [Shape.rowMajor_val_two, Shape.rowMajor_val_three]
    show ((0 : ℕ) * 128 + k.val) * 128 + d.val = k.val * 128 + d.val
    omega)]
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm)

theorem V1_v28_apply (c : Dev nD) (k d : Fin 128) :
    (V1 m c main_v28 : S128x128.Idx → EReal) (ix2 k d) = m ((c : Thread nD τ).loc main_arg3) (ix3 0 d k) := by
  rw [V1_v28_eq, slice0_apply]; exact B1_v13 m c 0 k d

theorem V1_v30_apply (c : Dev nD) (k d : Fin 128) :
    (V1 m c main_v30 : S128x128.Idx → EReal) (ix2 k d) = m ((c : Thread nD τ).loc main_arg5) (ix3 0 d k) := by
  rw [V1_v30_eq, slice0_apply]; exact B1_v14 m c 0 k d

theorem V1_v33_apply (c : Dev nD) (d : Fin 128) :
    (V1 m c main_v33 : S1x128.Idx → EReal) (ix2 0 d) = m ((c : Thread nD τ).loc main_arg4) (ix2 0 d) := by
  rw [V1_v33_eq]
  rw [shapeCast_apply _ _ (ix2 (0 : Fin 1) d) (ix1 d) (by
    rw [Shape.rowMajor_val_two, Shape.rowMajor_val_one]
    show d.val = (0 : ℕ) * 128 + d.val
    omega)]
  rw [shapeCast_apply _ _ (ix1 d) (ix2 (0 : Fin 1) d) (by
    rw [Shape.rowMajor_val_two, Shape.rowMajor_val_one]
    show (0 : ℕ) * 128 + d.val = d.val
    omega)]
  exact extractStridedSlice_apply _ _ _ _ _ (fun a => by
    match a with
    | ⟨0, _⟩ => exact (Nat.zero_add _).symm
    | ⟨1, _⟩ => exact (Nat.zero_add _).symm)

theorem X0_eq (c : Dev nD) :
    X0 m c = Cert.Spec.layer 0 (m ((c : Thread nD τ).loc main_arg0))
      (Cert.Spec.aggOf (SK m c) (CNTK m c) (m ((c : Thread nD τ).loc main_arg0)))
      (m ((c : Thread nD τ).loc main_arg3)) (m ((c : Thread nD τ).loc main_arg4))
      (m ((c : Thread nD τ).loc main_arg5)) := by
  unfold X0
  rw [arrAt0_5]
  show Cert.Spec.layerT (V1 m c main_arg0) (V1 m c main_v26) (V1 m c main_v28) (V1 m c main_v30) (V1 m c main_v33) = _
  have h0 : V1 m c main_arg0 = m ((c : Thread nD τ).loc main_arg0) := (V1_of m c main_arg0 (by decide)).trans rfl
  have h26 := B1_v26 m c
  rw [Cert.Spec.aggMul_eq] at h26
  rw [h0]
  show Cert.Spec.layerT _ (B1 m c main_v26 : S50000x128.Idx → EReal) _ _ _ = _
  rw [h26]
  unfold Cert.Spec.layerT Cert.Spec.layer
  refine congrArg (Cert.Spec.mk2 (a := 50000) (b := 128)) (funext fun n => funext fun d => congrArg Cert.Spec.act ?_)
  exact Cert.Spec.linT_eq 0 _ _ _ _ _ _ _ _ (V1_v28_apply m c) (V1_v30_apply m c) (V1_v33_apply m c) n d

theorem carried_B2 (c : Dev nD) : Carried m c (B2 m c) := by
  have h := carried_B1 m c
  have ne : ∀ r : Ref sig .tc, r ≠ main_v34 → B2 m c r = B1 m c r := fun r hr => by
    simp only [B2, Function.update_of_ne (StableHlo.devRef_ne_of_ne hr : (Proc.devRef .tc r : DevRef τ sig) ≠ Proc.devRef .tc main_v34)]
  exact ⟨(ne _ (by decide)).trans h.a0, (ne _ (by decide)).trans h.a2, (ne _ (by decide)).trans h.a3,
    (ne _ (by decide)).trans h.a4, (ne _ (by decide)).trans h.a5, (ne _ (by decide)).trans h.v1,
    (ne _ (by decide)).trans h.v3, (ne _ (by decide)).trans h.v12, (ne _ (by decide)).trans h.v13,
    (ne _ (by decide)).trans h.v14⟩

end Cert.KernelIdeal.Hand

end
-- ==== Proof.KiAffVal1.lean ====
import proofs.«405071_j1614907703383_1_alg».proof.Proof.KiAff1
import proofs.«405071_j1614907703383_1_alg».proof.Proof.Spec
import proofs.«405071_j1614907703383_1_alg».proof.Proof.LibPlainMatmul
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem pay1_at (x0 x1 : Vec Ideal S5000x128 .f32) (x2 x3 : Vec Ideal S128x128 .f32) (x4 : Vec Ideal S1x128 .f32)
    (r : Fin 5000) (d : Fin 128) :
    k1_pay1 x0 x1 x2 x3 x4 (ix2 r d)
      = Cert.Spec.act ((∑ k : Fin 128, x1 (ix2 r k) * x2 (ix2 k d)) + x4 (ix2 0 d) + ∑ k : Fin 128, x0 (ix2 r k) * x3 (ix2 k d)) := by
  unfold k1_pay1 Cert.Spec.act
  simp only [shapeCast_self, select_apply, cmpf_apply, mulf_apply, addf_apply, broadcast_apply, truncf_apply,
    PlainMatmul.matmul_zero_apply_of_eq dot_S5000x128_S128x128_S5000x128_1_0_0_1_n_n rfl,
    broadcastTo_apply x4 broadcasts_S1x128_S5000x128 (ix2 r d) (ix2 0 d) fun a => by match a with | ⟨0, _⟩ => rfl | ⟨1, _⟩ => rfl]
  rfl

section Value1
variable (V : (c : Dev nD) → (b : Ref sig .tc) → Buf (Elt Ideal) ((c : Thread nD τ).loc b))

theorem hz1 : (![0, 0] : Fin 2 → Nat) = fun _ => 0 := funext fun a => by fin_cases a <;> rfl

/-- Block indices: the node, neighbour and output windows sit at block (t, 0), the weights and the bias at (0, 0). -/
theorem bidx1 : ∀ (t : Fin grid1.N) (w : Fin 6) (a : Fin (cfg1.win w).shape.rank),
    (cfg1.win w).index t a = if a.val = 0 ∧ (w.val < 2 ∨ w.val = 5) then t.val else 0 := by decide +kernel

/-- So an element of window w's block at point t sits in the array 5000 t rows down for those three windows, in place for the others. -/
theorem emb1 (w : Fin cfg1.W) (t : Fin cfg1.N) (j : ((cfg1.win w).xblock (grid1.coords t)).Idx) (a : Fin (cfg1.win w).shape.rank) :
    (((cfg1.win w).rect t).emb j a : ℕ)
      = j a + (if a.val = 0 ∧ (w.val < 2 ∨ w.val = 5) then t.val else 0) * (cfg1.win w).size a := by
  rw [Window.rect_emb_val, bidx1, Nat.add_comm]

/-- Row n of the output array lies in the block of point n / 5000, at row n % 5000. -/
theorem covered1_5 (i : S50000x128.Idx) :
    ∃ t : Fin cfg1.N, (cfg1.win 5).flush t = true ∧ i ∈ ((cfg1.win 5).blk t).view.set :=
  let t : Fin cfg1.N := ⟨(i 0).val / 5000, lt_of_lt_of_eq (Nat.div_lt_of_lt_mul (i 0).isLt) N_1.symm⟩
  let y : S5000x128.Idx := ix2 ⟨(i 0).val % 5000, Nat.mod_lt _ (by decide)⟩ (i 1)
  ⟨t, flush1_5 t, (Shape.idx_ext₂ ((emb1 5 t y 0).trans (Nat.mod_add_div' _ _)) (emb1 5 t y 1) :
    ((cfg1.win 5).blk t).view.emb y = i) ▸ ((cfg1.win 5).blk t).view.emb_mem_set y⟩

/-- Row r of the node and neighbour blocks at point t is row n = 5000 t + r of their arrays. -/
theorem row1 (c : Dev nD) (t : Fin cfg1.N) (r : Fin 5000) (n : Fin 50000) (hn : (n : ℕ) = r + t * 5000) (k : Fin 128) :
    iblk1 V c 0 t (ix2 r k) = V c (Pipeline.arrRef spec1 0) (ix2 n k)
      ∧ iblk1 V c 1 t (ix2 r k) = V c (Pipeline.arrRef spec1 1) (ix2 n k) :=
  ⟨congrArg (V c _) (Shape.idx_ext₂ (y := ix2 n k) ((emb1 0 t (ix2 r k) 0).trans hn.symm) (emb1 0 t (ix2 r k) 1)),
    congrArg (V c _) (Shape.idx_ext₂ (y := ix2 n k) ((emb1 1 t (ix2 r k) 0).trans hn.symm) (emb1 1 t (ix2 r k) 1))⟩

/-- The weights' and the bias's blocks are their arrays. -/
theorem blk1 (c : Dev nD) (t : Fin cfg1.N) : iblk1 V c 2 t = V c (Pipeline.arrRef spec1 2)
    ∧ iblk1 V c 3 t = V c (Pipeline.arrRef spec1 3) ∧ iblk1 V c 4 t = V c (Pipeline.arrRef spec1 4) :=
  ⟨funext fun y : S128x128.Idx => congrArg (V c _) (Shape.idx_ext₂ (y := y) (emb1 2 t y 0) (emb1 2 t y 1)),
    funext fun y : S128x128.Idx => congrArg (V c _) (Shape.idx_ext₂ (y := y) (emb1 3 t y 0) (emb1 3 t y 1)),
    funext fun y : S1x128.Idx => congrArg (V c _) (Shape.idx_ext₂ (y := y) (emb1 4 t y 0) (emb1 4 t y 1))⟩

/-- The payload of the five blocks at point t is the layer of the five arrays at the element under the block's entry. -/
theorem pay1_blk (c : Dev nD) (t : Fin cfg1.N) (r : Fin 5000) (d : Fin 128) :
    k1_pay1 (iblk1 V c 0 t) (iblk1 V c 1 t) (iblk1 V c 2 t) (iblk1 V c 3 t) (iblk1 V c 4 t) (ix2 r d)
      = Cert.Spec.layerT (V c (Pipeline.arrRef spec1 0)) (V c (Pipeline.arrRef spec1 1))
      (V c (Pipeline.arrRef spec1 2)) (V c (Pipeline.arrRef spec1 3)) (V c (Pipeline.arrRef spec1 4)) (((cfg1.win 5).blk t).view.emb (ix2 r d)) := by
  obtain ⟨n, hn, he⟩ : ∃ n : Fin 50000, (n : ℕ) = r + t * 5000 ∧ ((cfg1.win 5).blk t).view.emb (ix2 r d) = ix2 n d :=
    ⟨_, emb1 5 t (ix2 r d) 0, Shape.idx_ext₂ rfl (emb1 5 t (ix2 r d) 1)⟩
  obtain ⟨hl, hr, hb⟩ := blk1 V c t
  rw [pay1_at, he, hl, hr, hb]
  simp only [fun k => (row1 V c t r n hn k).1, fun k => (row1 V c t r n hn k).2]
  rfl

theorem arrAt1_5 (c : Dev nD) :
    (dat1 V c).arrAt 5 cfg1.N = Cert.Spec.layerT (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 5 _ (fun t _ => by
    show (cfg1.win 5).cut (grid1.coords t) ((dat1 V c).after 5 t) = _
    rw [after1_5]; unfold out1_5
    rw [View.canon_unit_zero hz1]
    simp only [View.ld_unit_zero (S := S5000x128) hz1, View.ld_unit_zero (S := S128x128) hz1, View.ld_unit_zero (S := S1x128) hz1]
    refine funext fun j : S5000x128.Idx => ?_
    obtain ⟨r, d, rfl⟩ : ∃ (r : Fin 5000) (d : Fin 128), j = ix2 r d := ⟨j 0, j 1, eq_ix2 j⟩
    exact pay1_blk V c t r d) covered1_5

end Value1

end Cert.KernelIdeal.Hand

end
-- ==== Proof.KiValStep.lean ====
import proofs.«405071_j1614907703383_1_alg».proof.Proof.KiVal0
import proofs.«405071_j1614907703383_1_alg».proof.Proof.KiAffVal1
import Idealize.ShloMosaic.Lib.ValueLayout

set_option pp.maxSteps 5000
set_option pp.deepTerms false

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

set_option maxHeartbeats 2000000 in

theorem h1_agg (W : Valuation τ sig (Elt Ideal)) :
    (StableHlo.after hostOps1 W main_v46 : S50000x128.Idx → EReal)
      = mulf (F := Ideal) (φ := .f32)
          (Host.scatterAdd (F := Ideal) scatter_S50000x128_S600000x1_S600000x128_1_0_0_1
            (broadcastInDim S50000x128 ![] bcast_S_S50000x128 (constant (F := Ideal) S_ .f32 0x00000000#32))
            (broadcastInDim S600000x1 ![0] bcast_S600000_S600000x1_0 (W main_v3))
            (Host.gather gather_S50000x128_S600000x1_S600000x128_1_0_n_n_0_1_1128 (W main_v34)
              (broadcastInDim S600000x1 ![0] bcast_S600000_S600000x1_0
                (select (cmpi .slt (W main_v1) (broadcastInDim S600000 ![] bcast_S_S600000 (constantI S_ 32 0#32)))
                  (addi (W main_v1) (broadcastInDim S600000 ![] bcast_S_S600000 (constantI S_ 32 50000#32)))
                  (W main_v1)))))
          (broadcastInDim S50000x128 ![0, 1] bcast_S50000x1_S50000x128_0_1 (W main_v12)) := by
  after_results <;> rfl

set_option maxHeartbeats 1000000 in

theorem h1_wl (W : Valuation τ sig (Elt Ideal)) :
    (StableHlo.after hostOps1 W main_v48 : S128x128.Idx → EReal)
      = shapeCast S128x128 (extractStridedSlice S1x128x128 ![1, 0, 0] (W main_v13) slices_S4x128x128_S1x128x128_1_0_0)
          shapeCasts_S1x128x128_S128x128 := by
  after_results <;> rfl

set_option maxHeartbeats 1000000 in

theorem h1_wr (W : Valuation τ sig (Elt Ideal)) :
    (StableHlo.after hostOps1 W main_v50 : S128x128.Idx → EReal)
      = shapeCast S128x128 (extractStridedSlice S1x128x128 ![1, 0, 0] (W main_v14) slices_S4x128x128_S1x128x128_1_0_0)
          shapeCasts_S1x128x128_S128x128 := by
  after_results <;> rfl

set_option maxHeartbeats 1000000 in

theorem h1_b (W : Valuation τ sig (Elt Ideal)) :
    (StableHlo.after hostOps1 W main_v53 : S1x128.Idx → EReal)
      = shapeCast S1x128 (shapeCast S128 (extractStridedSlice S1x128 ![1, 0] (W main_arg4) slices_S4x128_S1x128_1_0)
          shapeCasts_S1x128_S128) shapeCasts_S128_S1x128 := by
  after_results <;> rfl

theorem hostDivf_at {s : Shape} {φ : FTy} (a b : FVec Ideal s φ) (i : s.Idx) : Host.divf a b i = Ideal.div (a i) (b i) := rfl

theorem one_at (i : S50000.Idx) :
    (broadcastInDim S50000 ![] bcast_S_S50000 (constant (F := Ideal) S_ .f32 0x3F800000#32) : S50000.Idx → EReal) i
      = Cert.Spec.one := rfl

theorem inv_at1 (c : Dev nD) (n : Fin 50000) (k : Fin 128) :
    (broadcastInDim S50000x128 ![0, 1] bcast_S50000x1_S50000x128_0_1 (invK m c) : S50000x128.Idx → EReal) (ix2 n k)
      = Ideal.div Cert.Spec.one (max (CNTK m c (ix1 n)) Cert.Spec.one) := by
  refine (broadcastInDim_apply _ _ _ (ix2 n k) (ix2 n (0 : Fin 1)) fun a => ?_).trans ?_
  · match a with
    | ⟨0, _⟩ => rfl
    | ⟨1, _⟩ => rfl
  unfold invK
  generalize CNTK m c = C
  refine (broadcastInDim_apply _ _ _ (ix2 n (0 : Fin 1)) (ix1 n) fun a => ?_).trans ?_
  · match a with
    | ⟨0, _⟩ => rfl
  rw [hostDivf_at, maximumf_apply, one_at]

theorem step1 (c : Dev nD) (W : Valuation τ sig (Elt Ideal)) (hC : Carried m c W) :
    Carried m c (StableHlo.after hostOps1 W)
    ∧ StableHlo.after hostOps1 W main_v34 = W main_v34
    ∧ (StableHlo.after hostOps1 W main_v46 : S50000x128.Idx → EReal) = Cert.Spec.aggMul (SK m c) (CNTK m c) (W main_v34)
    ∧ (∀ k d : Fin 128, (StableHlo.after hostOps1 W main_v48 : S128x128.Idx → EReal) (ix2 k d) = m ((c : Thread nD τ).loc main_arg3) (ix3 1 d k))
    ∧ (∀ k d : Fin 128, (StableHlo.after hostOps1 W main_v50 : S128x128.Idx → EReal) (ix2 k d) = m ((c : Thread nD τ).loc main_arg5) (ix3 1 d k))
    ∧ (∀ d : Fin 128, (StableHlo.after hostOps1 W main_v53 : S1x128.Idx → EReal) (ix2 0 d) = m ((c : Thread nD τ).loc main_arg4) (ix2 1 d)) := by
  have hne : ∀ r : Ref sig .tc, r ∉ hostOps1_W → StableHlo.after hostOps1 W r = W r :=
    fun r h => StableHlo.after_of_writes_sub hostOps1 W hostOps1_writes h
  refine ⟨⟨(hne _ (by decide)).trans hC.a0, (hne _ (by decide)).trans hC.a2, (hne _ (by decide)).trans hC.a3,
    (hne _ (by decide)).trans hC.a4, (hne _ (by decide)).trans hC.a5, (hne _ (by decide)).trans hC.v1,
    (hne _ (by decide)).trans hC.v3, (hne _ (by decide)).trans hC.v12, (hne _ (by decide)).trans hC.v13,
    (hne _ (by decide)).trans hC.v14⟩, hne _ (by decide), ?_, ?_, ?_, ?_⟩
  ·
    have e : (StableHlo.after hostOps1 W main_v46 : S50000x128.Idx → EReal)
        = mulf (F := Ideal) (φ := .f32) (SK m c (W main_v34))
            (broadcastInDim S50000x128 ![0, 1] bcast_S50000x1_S50000x128_0_1 (invK m c)) := by
      rw [h1_agg, hC.v1, hC.v3, hC.v12]; rfl
    rw [e]
    refine Cert.Spec.ext2 fun n k => ?_
    rw [mulf_apply, inv_at1]; rfl
  · intro k d
    rw [h1_wl, hC.v13]
    refine (shapeCast_1ab_ab_apply _ _ k d).trans ?_
    refine (extractStridedSlice_apply _ _ _ (ix3 (0 : Fin 1) k d) (ix3 (1 : Fin 4) k d) fun a => ?_).trans (B1_v13 m c 1 k d)
    match a with
    | ⟨0, _⟩ => rfl
    | ⟨1, _⟩ => exact (Nat.zero_add _).symm
    | ⟨2, _⟩ => exact (Nat.zero_add _).symm
  · intro k d
    rw [h1_wr, hC.v14]
    refine (shapeCast_1ab_ab_apply _ _ k d).trans ?_
    refine (extractStridedSlice_apply _ _ _ (ix3 (0 : Fin 1) k d) (ix3 (1 : Fin 4) k d) fun a => ?_).trans (B1_v14 m c 1 k d)
    match a with
    | ⟨0, _⟩ => rfl
    | ⟨1, _⟩ => exact (Nat.zero_add _).symm
    | ⟨2, _⟩ => exact (Nat.zero_add _).symm
  · intro d
    rw [h1_b, hC.a4]
    refine (shapeCast_a_1a_apply _ _ 0 d).trans ?_
    refine (shapeCast_1a_a_apply _ _ d).trans ?_
    exact slice2_axis0_apply 1 _ _ (0 : Fin 1) d (1 : Fin 4) rfl

theorem lay_eq1 (l : Fin 4) (x agg : Cert.Spec.SX.Idx → EReal) (Wl : Cert.Spec.SW.Idx → EReal)
    (bl : Cert.Spec.SB.Idx → EReal) (Wr : Cert.Spec.SW.Idx → EReal) (wlT wrT : Cert.Spec.SWT.Idx → EReal)
    (b : Cert.Spec.SB1.Idx → EReal)
    (hl : ∀ k d, wlT (ix2 k d) = Wl (ix3 l d k)) (hr : ∀ k d, wrT (ix2 k d) = Wr (ix3 l d k))
    (hb : ∀ d, b (ix2 0 d) = bl (ix2 l d)) :
    Cert.Spec.layerT x agg wlT wrT b = Cert.Spec.layer l x agg Wl bl Wr := by
  unfold Cert.Spec.layerT Cert.Spec.layer
  simp only [Cert.Spec.linT_eq l x agg Wl bl Wr wlT wrT b hl hr hb]

theorem X1_eq (c : Dev nD) :
    X1 m c = Cert.Spec.layer 1 (X0 m c) (Cert.Spec.aggOf (SK m c) (CNTK m c) (X0 m c))
      (m ((c : Thread nD τ).loc main_arg3)) (m ((c : Thread nD τ).loc main_arg4))
      (m ((c : Thread nD τ).loc main_arg5)) := by
  obtain ⟨_, h34, h46, h48, h50, h53⟩ := step1 m c (B2 m c) (carried_B2 m c)
  have hx : B2 m c main_v34 = X0 m c := Function.update_self ..
  unfold X1
  rw [arrAt1_5]
  show Cert.Spec.layerT (StableHlo.after hostOps1 (B2 m c) main_v34) (StableHlo.after hostOps1 (B2 m c) main_v46)
    (StableHlo.after hostOps1 (B2 m c) main_v48) (StableHlo.after hostOps1 (B2 m c) main_v50)
    (StableHlo.after hostOps1 (B2 m c) main_v53) = _
  rw [h34, h46, Cert.Spec.aggMul_eq, hx]
  exact lay_eq1 1 _ _ _ _ _ _ _ _ h48 h50 h53

theorem carried_B4 (c : Dev nD) : Carried m c (B4 m c) := by
  have h3 : Carried m c (B3 m c) := (step1 m c (B2 m c) (carried_B2 m c)).1
  have hu : ∀ r : Ref sig .tc, r ≠ main_v54 → B4 m c r = B3 m c r := fun r h =>
    Function.update_of_ne (StableHlo.devRef_ne_of_ne h) _ _
  exact ⟨(hu _ (by decide)).trans h3.a0, (hu _ (by decide)).trans h3.a2, (hu _ (by decide)).trans h3.a3,
    (hu _ (by decide)).trans h3.a4, (hu _ (by decide)).trans h3.a5, (hu _ (by decide)).trans h3.v1,
    (hu _ (by decide)).trans h3.v3, (hu _ (by decide)).trans h3.v12, (hu _ (by decide)).trans h3.v13,
    (hu _ (by decide)).trans h3.v14⟩

end Cert.KernelIdeal.Hand

end
-- ==== Proof.KiAffVal2.lean ====
import proofs.«405071_j1614907703383_1_alg».proof.Proof.KiAff2
import proofs.«405071_j1614907703383_1_alg».proof.Proof.Spec
import proofs.«405071_j1614907703383_1_alg».proof.Proof.LibPlainMatmul
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem pay2_at (x0 x1 : Vec Ideal S5000x128 .f32) (x2 x3 : Vec Ideal S128x128 .f32) (x4 : Vec Ideal S1x128 .f32)
    (r : Fin 5000) (d : Fin 128) :
    k2_pay1 x0 x1 x2 x3 x4 (ix2 r d)
      = x0 (ix2 r d) + Cert.Spec.act ((∑ k : Fin 128, x1 (ix2 r k) * x2 (ix2 k d)) + x4 (ix2 0 d) + ∑ k : Fin 128, x0 (ix2 r k) * x3 (ix2 k d)) := by
  unfold k2_pay1 Cert.Spec.act
  simp only [shapeCast_self, select_apply, cmpf_apply, mulf_apply, addf_apply, broadcast_apply, truncf_apply,
    PlainMatmul.matmul_zero_apply_of_eq dot_S5000x128_S128x128_S5000x128_1_0_0_1_n_n rfl,
    broadcastTo_apply x4 broadcasts_S1x128_S5000x128 (ix2 r d) (ix2 0 d) fun a => by match a with | ⟨0, _⟩ => rfl | ⟨1, _⟩ => rfl]
  rfl

section Value2
variable (V : (c : Dev nD) → (b : Ref sig .tc) → Buf (Elt Ideal) ((c : Thread nD τ).loc b))

theorem hz2 : (![0, 0] : Fin 2 → Nat) = fun _ => 0 := funext fun a => by fin_cases a <;> rfl

/-- Block indices: the node, neighbour and output windows sit at block (t, 0), the weights and the bias at (0, 0). -/
theorem bidx2 : ∀ (t : Fin grid2.N) (w : Fin 6) (a : Fin (cfg2.win w).shape.rank),
    (cfg2.win w).index t a = if a.val = 0 ∧ (w.val < 2 ∨ w.val = 5) then t.val else 0 := by decide +kernel

/-- So an element of window w's block at point t sits in the array 5000 t rows down for those three windows, in place for the others. -/
theorem emb2 (w : Fin cfg2.W) (t : Fin cfg2.N) (j : ((cfg2.win w).xblock (grid2.coords t)).Idx) (a : Fin (cfg2.win w).shape.rank) :
    (((cfg2.win w).rect t).emb j a : ℕ)
      = j a + (if a.val = 0 ∧ (w.val < 2 ∨ w.val = 5) then t.val else 0) * (cfg2.win w).size a := by
  rw [Window.rect_emb_val, bidx2, Nat.add_comm]

/-- Row n of the output array lies in the block of point n / 5000, at row n % 5000. -/
theorem covered2_5 (i : S50000x128.Idx) :
    ∃ t : Fin cfg2.N, (cfg2.win 5).flush t = true ∧ i ∈ ((cfg2.win 5).blk t).view.set :=
  let t : Fin cfg2.N := ⟨(i 0).val / 5000, lt_of_lt_of_eq (Nat.div_lt_of_lt_mul (i 0).isLt) N_2.symm⟩
  let y : S5000x128.Idx := ix2 ⟨(i 0).val % 5000, Nat.mod_lt _ (by decide)⟩ (i 1)
  ⟨t, flush2_5 t, (Shape.idx_ext₂ ((emb2 5 t y 0).trans (Nat.mod_add_div' _ _)) (emb2 5 t y 1) :
    ((cfg2.win 5).blk t).view.emb y = i) ▸ ((cfg2.win 5).blk t).view.emb_mem_set y⟩

/-- Row r of the node and neighbour blocks at point t is row n = 5000 t + r of their arrays. -/
theorem row2 (c : Dev nD) (t : Fin cfg2.N) (r : Fin 5000) (n : Fin 50000) (hn : (n : ℕ) = r + t * 5000) (k : Fin 128) :
    iblk2 V c 0 t (ix2 r k) = V c (Pipeline.arrRef spec2 0) (ix2 n k)
      ∧ iblk2 V c 1 t (ix2 r k) = V c (Pipeline.arrRef spec2 1) (ix2 n k) :=
  ⟨congrArg (V c _) (Shape.idx_ext₂ (y := ix2 n k) ((emb2 0 t (ix2 r k) 0).trans hn.symm) (emb2 0 t (ix2 r k) 1)),
    congrArg (V c _) (Shape.idx_ext₂ (y := ix2 n k) ((emb2 1 t (ix2 r k) 0).trans hn.symm) (emb2 1 t (ix2 r k) 1))⟩

/-- The weights' and the bias's blocks are their arrays. -/
theorem blk2 (c : Dev nD) (t : Fin cfg2.N) : iblk2 V c 2 t = V c (Pipeline.arrRef spec2 2)
    ∧ iblk2 V c 3 t = V c (Pipeline.arrRef spec2 3) ∧ iblk2 V c 4 t = V c (Pipeline.arrRef spec2 4) :=
  ⟨funext fun y : S128x128.Idx => congrArg (V c _) (Shape.idx_ext₂ (y := y) (emb2 2 t y 0) (emb2 2 t y 1)),
    funext fun y : S128x128.Idx => congrArg (V c _) (Shape.idx_ext₂ (y := y) (emb2 3 t y 0) (emb2 3 t y 1)),
    funext fun y : S1x128.Idx => congrArg (V c _) (Shape.idx_ext₂ (y := y) (emb2 4 t y 0) (emb2 4 t y 1))⟩

/-- The payload of the five blocks at point t is the layer of the five arrays at the element under the block's entry. -/
theorem pay2_blk (c : Dev nD) (t : Fin cfg2.N) (r : Fin 5000) (d : Fin 128) :
    k2_pay1 (iblk2 V c 0 t) (iblk2 V c 1 t) (iblk2 V c 2 t) (iblk2 V c 3 t) (iblk2 V c 4 t) (ix2 r d)
      = Cert.Spec.layerResT (V c (Pipeline.arrRef spec2 0)) (V c (Pipeline.arrRef spec2 1))
      (V c (Pipeline.arrRef spec2 2)) (V c (Pipeline.arrRef spec2 3)) (V c (Pipeline.arrRef spec2 4)) (((cfg2.win 5).blk t).view.emb (ix2 r d)) := by
  obtain ⟨n, hn, he⟩ : ∃ n : Fin 50000, (n : ℕ) = r + t * 5000 ∧ ((cfg2.win 5).blk t).view.emb (ix2 r d) = ix2 n d :=
    ⟨_, emb2 5 t (ix2 r d) 0, Shape.idx_ext₂ rfl (emb2 5 t (ix2 r d) 1)⟩
  obtain ⟨hl, hr, hb⟩ := blk2 V c t
  rw [pay2_at, he, hl, hr, hb]
  simp only [fun k => (row2 V c t r n hn k).1, fun k => (row2 V c t r n hn k).2]
  rfl

theorem arrAt2_5 (c : Dev nD) :
    (dat2 V c).arrAt 5 cfg2.N = Cert.Spec.layerResT (V c (Pipeline.arrRef spec2 0)) (V c (Pipeline.arrRef spec2 1))
      (V c (Pipeline.arrRef spec2 2)) (V c (Pipeline.arrRef spec2 3)) (V c (Pipeline.arrRef spec2 4)) :=
  (dat2 V c).arrAt_eq_of_cover 5 _ (fun t _ => by
    show (cfg2.win 5).cut (grid2.coords t) ((dat2 V c).after 5 t) = _
    rw [after2_5]; unfold out2_5
    rw [View.canon_unit_zero hz2]
    simp only [View.ld_unit_zero (S := S5000x128) hz2, View.ld_unit_zero (S := S128x128) hz2, View.ld_unit_zero (S := S1x128) hz2]
    refine funext fun j : S5000x128.Idx => ?_
    obtain ⟨r, d, rfl⟩ : ∃ (r : Fin 5000) (d : Fin 128), j = ix2 r d := ⟨j 0, j 1, eq_ix2 j⟩
    exact pay2_blk V c t r d) covered2_5

end Value2

end Cert.KernelIdeal.Hand

end
-- ==== Proof.KiValStep2.lean ====
import proofs.«405071_j1614907703383_1_alg».proof.Proof.KiValStep
import proofs.«405071_j1614907703383_1_alg».proof.Proof.KiAffVal2
import Idealize.ShloMosaic.Lib.ValueLayout

set_option pp.maxSteps 5000
set_option pp.deepTerms false

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

set_option maxHeartbeats 2000000 in

theorem h2_agg (W : Valuation τ sig (Elt Ideal)) :
    (StableHlo.after hostOps2 W main_v66 : S50000x128.Idx → EReal)
      = mulf (F := Ideal) (φ := .f32)
          (Host.scatterAdd (F := Ideal) scatter_S50000x128_S600000x1_S600000x128_1_0_0_1
            (broadcastInDim S50000x128 ![] bcast_S_S50000x128 (constant (F := Ideal) S_ .f32 0x00000000#32))
            (broadcastInDim S600000x1 ![0] bcast_S600000_S600000x1_0 (W main_v3))
            (Host.gather gather_S50000x128_S600000x1_S600000x128_1_0_n_n_0_1_1128 (W main_v54)
              (broadcastInDim S600000x1 ![0] bcast_S600000_S600000x1_0
                (select (cmpi .slt (W main_v1) (broadcastInDim S600000 ![] bcast_S_S600000 (constantI S_ 32 0#32)))
                  (addi (W main_v1) (broadcastInDim S600000 ![] bcast_S_S600000 (constantI S_ 32 50000#32)))
                  (W main_v1)))))
          (broadcastInDim S50000x128 ![0, 1] bcast_S50000x1_S50000x128_0_1 (W main_v12)) := by
  after_results <;> rfl

set_option maxHeartbeats 1000000 in

theorem h2_wl (W : Valuation τ sig (Elt Ideal)) :
    (StableHlo.after hostOps2 W main_v68 : S128x128.Idx → EReal)
      = shapeCast S128x128 (extractStridedSlice S1x128x128 ![2, 0, 0] (W main_v13) slices_S4x128x128_S1x128x128_2_0_0)
          shapeCasts_S1x128x128_S128x128 := by
  after_results <;> rfl

set_option maxHeartbeats 1000000 in

theorem h2_wr (W : Valuation τ sig (Elt Ideal)) :
    (StableHlo.after hostOps2 W main_v70 : S128x128.Idx → EReal)
      = shapeCast S128x128 (extractStridedSlice S1x128x128 ![2, 0, 0] (W main_v14) slices_S4x128x128_S1x128x128_2_0_0)
          shapeCasts_S1x128x128_S128x128 := by
  after_results <;> rfl

set_option maxHeartbeats 1000000 in

theorem h2_b (W : Valuation τ sig (Elt Ideal)) :
    (StableHlo.after hostOps2 W main_v73 : S1x128.Idx → EReal)
      = shapeCast S1x128 (shapeCast S128 (extractStridedSlice S1x128 ![2, 0] (W main_arg4) slices_S4x128_S1x128_2_0)
          shapeCasts_S1x128_S128) shapeCasts_S128_S1x128 := by
  after_results <;> rfl

theorem step2 (c : Dev nD) (W : Valuation τ sig (Elt Ideal)) (hC : Carried m c W) :
    Carried m c (StableHlo.after hostOps2 W)
    ∧ StableHlo.after hostOps2 W main_v54 = W main_v54
    ∧ (StableHlo.after hostOps2 W main_v66 : S50000x128.Idx → EReal) = Cert.Spec.aggMul (SK m c) (CNTK m c) (W main_v54)
    ∧ (∀ k d : Fin 128, (StableHlo.after hostOps2 W main_v68 : S128x128.Idx → EReal) (ix2 k d) = m ((c : Thread nD τ).loc main_arg3) (ix3 2 d k))
    ∧ (∀ k d : Fin 128, (StableHlo.after hostOps2 W main_v70 : S128x128.Idx → EReal) (ix2 k d) = m ((c : Thread nD τ).loc main_arg5) (ix3 2 d k))
    ∧ (∀ d : Fin 128, (StableHlo.after hostOps2 W main_v73 : S1x128.Idx → EReal) (ix2 0 d) = m ((c : Thread nD τ).loc main_arg4) (ix2 2 d)) := by
  have hne : ∀ r : Ref sig .tc, r ∉ hostOps2_W → StableHlo.after hostOps2 W r = W r :=
    fun r h => StableHlo.after_of_writes_sub hostOps2 W hostOps2_writes h
  refine ⟨⟨(hne _ (by decide)).trans hC.a0, (hne _ (by decide)).trans hC.a2, (hne _ (by decide)).trans hC.a3,
    (hne _ (by decide)).trans hC.a4, (hne _ (by decide)).trans hC.a5, (hne _ (by decide)).trans hC.v1,
    (hne _ (by decide)).trans hC.v3, (hne _ (by decide)).trans hC.v12, (hne _ (by decide)).trans hC.v13,
    (hne _ (by decide)).trans hC.v14⟩, hne _ (by decide), ?_, ?_, ?_, ?_⟩
  ·
    have e : (StableHlo.after hostOps2 W main_v66 : S50000x128.Idx → EReal)
        = mulf (F := Ideal) (φ := .f32) (SK m c (W main_v54))
            (broadcastInDim S50000x128 ![0, 1] bcast_S50000x1_S50000x128_0_1 (invK m c)) := by
      rw [h2_agg, hC.v1, hC.v3, hC.v12]; rfl
    rw [e]
    refine Cert.Spec.ext2 fun n k => ?_
    rw [mulf_apply, inv_at1]; rfl
  · intro k d
    rw [h2_wl, hC.v13]
    refine (shapeCast_1ab_ab_apply _ _ k d).trans ?_
    refine (extractStridedSlice_apply _ _ _ (ix3 (0 : Fin 1) k d) (ix3 (2 : Fin 4) k d) fun a => ?_).trans (B1_v13 m c 2 k d)
    match a with
    | ⟨0, _⟩ => rfl
    | ⟨1, _⟩ => exact (Nat.zero_add _).symm
    | ⟨2, _⟩ => exact (Nat.zero_add _).symm
  · intro k d
    rw [h2_wr, hC.v14]
    refine (shapeCast_1ab_ab_apply _ _ k d).trans ?_
    refine (extractStridedSlice_apply _ _ _ (ix3 (0 : Fin 1) k d) (ix3 (2 : Fin 4) k d) fun a => ?_).trans (B1_v14 m c 2 k d)
    match a with
    | ⟨0, _⟩ => rfl
    | ⟨1, _⟩ => exact (Nat.zero_add _).symm
    | ⟨2, _⟩ => exact (Nat.zero_add _).symm
  · intro d
    rw [h2_b, hC.a4]
    refine (shapeCast_a_1a_apply _ _ 0 d).trans ?_
    refine (shapeCast_1a_a_apply _ _ d).trans ?_
    exact slice2_axis0_apply 2 _ _ (0 : Fin 1) d (2 : Fin 4) rfl

theorem lay_eq2 (l : Fin 4) (x agg : Cert.Spec.SX.Idx → EReal) (Wl : Cert.Spec.SW.Idx → EReal)
    (bl : Cert.Spec.SB.Idx → EReal) (Wr : Cert.Spec.SW.Idx → EReal) (wlT wrT : Cert.Spec.SWT.Idx → EReal)
    (b : Cert.Spec.SB1.Idx → EReal)
    (hl : ∀ k d, wlT (ix2 k d) = Wl (ix3 l d k)) (hr : ∀ k d, wrT (ix2 k d) = Wr (ix3 l d k))
    (hb : ∀ d, b (ix2 0 d) = bl (ix2 l d)) :
    Cert.Spec.layerResT x agg wlT wrT b = Cert.Spec.layerRes l x agg Wl bl Wr := by
  unfold Cert.Spec.layerResT Cert.Spec.layerRes
  simp only [Cert.Spec.linT_eq l x agg Wl bl Wr wlT wrT b hl hr hb]

theorem X2_eq (c : Dev nD) :
    X2 m c = Cert.Spec.layerRes 2 (X1 m c) (Cert.Spec.aggOf (SK m c) (CNTK m c) (X1 m c))
      (m ((c : Thread nD τ).loc main_arg3)) (m ((c : Thread nD τ).loc main_arg4))
      (m ((c : Thread nD τ).loc main_arg5)) := by
  obtain ⟨_, h34, h46, h48, h50, h53⟩ := step2 m c (B4 m c) (carried_B4 m c)
  have hx : B4 m c main_v54 = X1 m c := Function.update_self ..
  unfold X2
  rw [arrAt2_5]
  show Cert.Spec.layerResT (StableHlo.after hostOps2 (B4 m c) main_v54) (StableHlo.after hostOps2 (B4 m c) main_v66)
    (StableHlo.after hostOps2 (B4 m c) main_v68) (StableHlo.after hostOps2 (B4 m c) main_v70)
    (StableHlo.after hostOps2 (B4 m c) main_v73) = _
  rw [h34, h46, Cert.Spec.aggMul_eq, hx]
  exact lay_eq2 2 _ _ _ _ _ _ _ _ h48 h50 h53

theorem carried_B6 (c : Dev nD) : Carried m c (B6 m c) := by
  have h3 : Carried m c (B5 m c) := (step2 m c (B4 m c) (carried_B4 m c)).1
  have hu : ∀ r : Ref sig .tc, r ≠ main_v74 → B6 m c r = B5 m c r := fun r h =>
    Function.update_of_ne (StableHlo.devRef_ne_of_ne h) _ _
  exact ⟨(hu _ (by decide)).trans h3.a0, (hu _ (by decide)).trans h3.a2, (hu _ (by decide)).trans h3.a3,
    (hu _ (by decide)).trans h3.a4, (hu _ (by decide)).trans h3.a5, (hu _ (by decide)).trans h3.v1,
    (hu _ (by decide)).trans h3.v3, (hu _ (by decide)).trans h3.v12, (hu _ (by decide)).trans h3.v13,
    (hu _ (by decide)).trans h3.v14⟩

end Cert.KernelIdeal.Hand

end
-- ==== Proof.KiAffVal3.lean ====
import proofs.«405071_j1614907703383_1_alg».proof.Proof.KiAff3
import proofs.«405071_j1614907703383_1_alg».proof.Proof.Spec
import proofs.«405071_j1614907703383_1_alg».proof.Proof.LibPlainMatmul
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem pay3_at (x0 x1 : Vec Ideal S5000x128 .f32) (x2 x3 : Vec Ideal S128x128 .f32) (x4 : Vec Ideal S1x128 .f32)
    (r : Fin 5000) (d : Fin 128) :
    k3_pay1 x0 x1 x2 x3 x4 (ix2 r d)
      = x0 (ix2 r d) + Cert.Spec.act ((∑ k : Fin 128, x1 (ix2 r k) * x2 (ix2 k d)) + x4 (ix2 0 d) + ∑ k : Fin 128, x0 (ix2 r k) * x3 (ix2 k d)) := by
  unfold k3_pay1 Cert.Spec.act
  simp only [shapeCast_self, select_apply, cmpf_apply, mulf_apply, addf_apply, broadcast_apply, truncf_apply,
    PlainMatmul.matmul_zero_apply_of_eq dot_S5000x128_S128x128_S5000x128_1_0_0_1_n_n rfl,
    broadcastTo_apply x4 broadcasts_S1x128_S5000x128 (ix2 r d) (ix2 0 d) fun a => by match a with | ⟨0, _⟩ => rfl | ⟨1, _⟩ => rfl]
  rfl

section Value3
variable (V : (c : Dev nD) → (b : Ref sig .tc) → Buf (Elt Ideal) ((c : Thread nD τ).loc b))

theorem hz3 : (![0, 0] : Fin 2 → Nat) = fun _ => 0 := funext fun a => by fin_cases a <;> rfl

/-- Block indices: the node, neighbour and output windows sit at block (t, 0), the weights and the bias at (0, 0). -/
theorem bidx3 : ∀ (t : Fin grid3.N) (w : Fin 6) (a : Fin (cfg3.win w).shape.rank),
    (cfg3.win w).index t a = if a.val = 0 ∧ (w.val < 2 ∨ w.val = 5) then t.val else 0 := by decide +kernel

/-- So an element of window w's block at point t sits in the array 5000 t rows down for those three windows, in place for the others. -/
theorem emb3 (w : Fin cfg3.W) (t : Fin cfg3.N) (j : ((cfg3.win w).xblock (grid3.coords t)).Idx) (a : Fin (cfg3.win w).shape.rank) :
    (((cfg3.win w).rect t).emb j a : ℕ)
      = j a + (if a.val = 0 ∧ (w.val < 2 ∨ w.val = 5) then t.val else 0) * (cfg3.win w).size a := by
  rw [Window.rect_emb_val, bidx3, Nat.add_comm]

/-- Row n of the output array lies in the block of point n / 5000, at row n % 5000. -/
theorem covered3_5 (i : S50000x128.Idx) :
    ∃ t : Fin cfg3.N, (cfg3.win 5).flush t = true ∧ i ∈ ((cfg3.win 5).blk t).view.set :=
  let t : Fin cfg3.N := ⟨(i 0).val / 5000, lt_of_lt_of_eq (Nat.div_lt_of_lt_mul (i 0).isLt) N_3.symm⟩
  let y : S5000x128.Idx := ix2 ⟨(i 0).val % 5000, Nat.mod_lt _ (by decide)⟩ (i 1)
  ⟨t, flush3_5 t, (Shape.idx_ext₂ ((emb3 5 t y 0).trans (Nat.mod_add_div' _ _)) (emb3 5 t y 1) :
    ((cfg3.win 5).blk t).view.emb y = i) ▸ ((cfg3.win 5).blk t).view.emb_mem_set y⟩

/-- Row r of the node and neighbour blocks at point t is row n = 5000 t + r of their arrays. -/
theorem row3 (c : Dev nD) (t : Fin cfg3.N) (r : Fin 5000) (n : Fin 50000) (hn : (n : ℕ) = r + t * 5000) (k : Fin 128) :
    iblk3 V c 0 t (ix2 r k) = V c (Pipeline.arrRef spec3 0) (ix2 n k)
      ∧ iblk3 V c 1 t (ix2 r k) = V c (Pipeline.arrRef spec3 1) (ix2 n k) :=
  ⟨congrArg (V c _) (Shape.idx_ext₂ (y := ix2 n k) ((emb3 0 t (ix2 r k) 0).trans hn.symm) (emb3 0 t (ix2 r k) 1)),
    congrArg (V c _) (Shape.idx_ext₂ (y := ix2 n k) ((emb3 1 t (ix2 r k) 0).trans hn.symm) (emb3 1 t (ix2 r k) 1))⟩

/-- The weights' and the bias's blocks are their arrays. -/
theorem blk3 (c : Dev nD) (t : Fin cfg3.N) : iblk3 V c 2 t = V c (Pipeline.arrRef spec3 2)
    ∧ iblk3 V c 3 t = V c (Pipeline.arrRef spec3 3) ∧ iblk3 V c 4 t = V c (Pipeline.arrRef spec3 4) :=
  ⟨funext fun y : S128x128.Idx => congrArg (V c _) (Shape.idx_ext₂ (y := y) (emb3 2 t y 0) (emb3 2 t y 1)),
    funext fun y : S128x128.Idx => congrArg (V c _) (Shape.idx_ext₂ (y := y) (emb3 3 t y 0) (emb3 3 t y 1)),
    funext fun y : S1x128.Idx => congrArg (V c _) (Shape.idx_ext₂ (y := y) (emb3 4 t y 0) (emb3 4 t y 1))⟩

/-- The payload of the five blocks at point t is the layer of the five arrays at the element under the block's entry. -/
theorem pay3_blk (c : Dev nD) (t : Fin cfg3.N) (r : Fin 5000) (d : Fin 128) :
    k3_pay1 (iblk3 V c 0 t) (iblk3 V c 1 t) (iblk3 V c 2 t) (iblk3 V c 3 t) (iblk3 V c 4 t) (ix2 r d)
      = Cert.Spec.layerResT (V c (Pipeline.arrRef spec3 0)) (V c (Pipeline.arrRef spec3 1))
      (V c (Pipeline.arrRef spec3 2)) (V c (Pipeline.arrRef spec3 3)) (V c (Pipeline.arrRef spec3 4)) (((cfg3.win 5).blk t).view.emb (ix2 r d)) := by
  obtain ⟨n, hn, he⟩ : ∃ n : Fin 50000, (n : ℕ) = r + t * 5000 ∧ ((cfg3.win 5).blk t).view.emb (ix2 r d) = ix2 n d :=
    ⟨_, emb3 5 t (ix2 r d) 0, Shape.idx_ext₂ rfl (emb3 5 t (ix2 r d) 1)⟩
  obtain ⟨hl, hr, hb⟩ := blk3 V c t
  rw [pay3_at, he, hl, hr, hb]
  simp only [fun k => (row3 V c t r n hn k).1, fun k => (row3 V c t r n hn k).2]
  rfl

theorem arrAt3_5 (c : Dev nD) :
    (dat3 V c).arrAt 5 cfg3.N = Cert.Spec.layerResT (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5 _ (fun t _ => by
    show (cfg3.win 5).cut (grid3.coords t) ((dat3 V c).after 5 t) = _
    rw [after3_5]; unfold out3_5
    rw [View.canon_unit_zero hz3]
    simp only [View.ld_unit_zero (S := S5000x128) hz3, View.ld_unit_zero (S := S128x128) hz3, View.ld_unit_zero (S := S1x128) hz3]
    refine funext fun j : S5000x128.Idx => ?_
    obtain ⟨r, d, rfl⟩ : ∃ (r : Fin 5000) (d : Fin 128), j = ix2 r d := ⟨j 0, j 1, eq_ix2 j⟩
    exact pay3_blk V c t r d) covered3_5

end Value3

end Cert.KernelIdeal.Hand

end
-- ==== Proof.KiValStep3.lean ====
import proofs.«405071_j1614907703383_1_alg».proof.Proof.KiValStep2
import proofs.«405071_j1614907703383_1_alg».proof.Proof.KiAffVal3
import Idealize.ShloMosaic.Lib.ValueLayout

set_option pp.maxSteps 5000
set_option pp.deepTerms false

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

set_option maxHeartbeats 2000000 in

theorem h3_agg (W : Valuation τ sig (Elt Ideal)) :
    (StableHlo.after hostOps3 W main_v86 : S50000x128.Idx → EReal)
      = mulf (F := Ideal) (φ := .f32)
          (Host.scatterAdd (F := Ideal) scatter_S50000x128_S600000x1_S600000x128_1_0_0_1
            (broadcastInDim S50000x128 ![] bcast_S_S50000x128 (constant (F := Ideal) S_ .f32 0x00000000#32))
            (broadcastInDim S600000x1 ![0] bcast_S600000_S600000x1_0 (W main_v3))
            (Host.gather gather_S50000x128_S600000x1_S600000x128_1_0_n_n_0_1_1128 (W main_v74)
              (broadcastInDim S600000x1 ![0] bcast_S600000_S600000x1_0
                (select (cmpi .slt (W main_v1) (broadcastInDim S600000 ![] bcast_S_S600000 (constantI S_ 32 0#32)))
                  (addi (W main_v1) (broadcastInDim S600000 ![] bcast_S_S600000 (constantI S_ 32 50000#32)))
                  (W main_v1)))))
          (broadcastInDim S50000x128 ![0, 1] bcast_S50000x1_S50000x128_0_1 (W main_v12)) := by
  after_results <;> rfl

set_option maxHeartbeats 1000000 in

theorem h3_wl (W : Valuation τ sig (Elt Ideal)) :
    (StableHlo.after hostOps3 W main_v88 : S128x128.Idx → EReal)
      = shapeCast S128x128 (extractStridedSlice S1x128x128 ![3, 0, 0] (W main_v13) slices_S4x128x128_S1x128x128_3_0_0)
          shapeCasts_S1x128x128_S128x128 := by
  after_results <;> rfl

set_option maxHeartbeats 1000000 in

theorem h3_wr (W : Valuation τ sig (Elt Ideal)) :
    (StableHlo.after hostOps3 W main_v90 : S128x128.Idx → EReal)
      = shapeCast S128x128 (extractStridedSlice S1x128x128 ![3, 0, 0] (W main_v14) slices_S4x128x128_S1x128x128_3_0_0)
          shapeCasts_S1x128x128_S128x128 := by
  after_results <;> rfl

set_option maxHeartbeats 1000000 in

theorem h3_b (W : Valuation τ sig (Elt Ideal)) :
    (StableHlo.after hostOps3 W main_v93 : S1x128.Idx → EReal)
      = shapeCast S1x128 (shapeCast S128 (extractStridedSlice S1x128 ![3, 0] (W main_arg4) slices_S4x128_S1x128_3_0)
          shapeCasts_S1x128_S128) shapeCasts_S128_S1x128 := by
  after_results <;> rfl

theorem step3 (c : Dev nD) (W : Valuation τ sig (Elt Ideal)) (hC : Carried m c W) :
    Carried m c (StableHlo.after hostOps3 W)
    ∧ StableHlo.after hostOps3 W main_v74 = W main_v74
    ∧ (StableHlo.after hostOps3 W main_v86 : S50000x128.Idx → EReal) = Cert.Spec.aggMul (SK m c) (CNTK m c) (W main_v74)
    ∧ (∀ k d : Fin 128, (StableHlo.after hostOps3 W main_v88 : S128x128.Idx → EReal) (ix2 k d) = m ((c : Thread nD τ).loc main_arg3) (ix3 3 d k))
    ∧ (∀ k d : Fin 128, (StableHlo.after hostOps3 W main_v90 : S128x128.Idx → EReal) (ix2 k d) = m ((c : Thread nD τ).loc main_arg5) (ix3 3 d k))
    ∧ (∀ d : Fin 128, (StableHlo.after hostOps3 W main_v93 : S1x128.Idx → EReal) (ix2 0 d) = m ((c : Thread nD τ).loc main_arg4) (ix2 3 d)) := by
  have hne : ∀ r : Ref sig .tc, r ∉ hostOps3_W → StableHlo.after hostOps3 W r = W r :=
    fun r h => StableHlo.after_of_writes_sub hostOps3 W hostOps3_writes h
  refine ⟨⟨(hne _ (by decide)).trans hC.a0, (hne _ (by decide)).trans hC.a2, (hne _ (by decide)).trans hC.a3,
    (hne _ (by decide)).trans hC.a4, (hne _ (by decide)).trans hC.a5, (hne _ (by decide)).trans hC.v1,
    (hne _ (by decide)).trans hC.v3, (hne _ (by decide)).trans hC.v12, (hne _ (by decide)).trans hC.v13,
    (hne _ (by decide)).trans hC.v14⟩, hne _ (by decide), ?_, ?_, ?_, ?_⟩
  ·
    have e : (StableHlo.after hostOps3 W main_v86 : S50000x128.Idx → EReal)
        = mulf (F := Ideal) (φ := .f32) (SK m c (W main_v74))
            (broadcastInDim S50000x128 ![0, 1] bcast_S50000x1_S50000x128_0_1 (invK m c)) := by
      rw [h3_agg, hC.v1, hC.v3, hC.v12]; rfl
    rw [e]
    refine Cert.Spec.ext2 fun n k => ?_
    rw [mulf_apply, inv_at1]; rfl
  · intro k d
    rw [h3_wl, hC.v13]
    refine (shapeCast_1ab_ab_apply _ _ k d).trans ?_
    refine (extractStridedSlice_apply _ _ _ (ix3 (0 : Fin 1) k d) (ix3 (3 : Fin 4) k d) fun a => ?_).trans (B1_v13 m c 3 k d)
    match a with
    | ⟨0, _⟩ => rfl
    | ⟨1, _⟩ => exact (Nat.zero_add _).symm
    | ⟨2, _⟩ => exact (Nat.zero_add _).symm
  · intro k d
    rw [h3_wr, hC.v14]
    refine (shapeCast_1ab_ab_apply _ _ k d).trans ?_
    refine (extractStridedSlice_apply _ _ _ (ix3 (0 : Fin 1) k d) (ix3 (3 : Fin 4) k d) fun a => ?_).trans (B1_v14 m c 3 k d)
    match a with
    | ⟨0, _⟩ => rfl
    | ⟨1, _⟩ => exact (Nat.zero_add _).symm
    | ⟨2, _⟩ => exact (Nat.zero_add _).symm
  · intro d
    rw [h3_b, hC.a4]
    refine (shapeCast_a_1a_apply _ _ 0 d).trans ?_
    refine (shapeCast_1a_a_apply _ _ d).trans ?_
    exact slice2_axis0_apply 3 _ _ (0 : Fin 1) d (3 : Fin 4) rfl

theorem X3_eq (c : Dev nD) :
    X3 m c = Cert.Spec.layerRes 3 (X2 m c) (Cert.Spec.aggOf (SK m c) (CNTK m c) (X2 m c))
      (m ((c : Thread nD τ).loc main_arg3)) (m ((c : Thread nD τ).loc main_arg4))
      (m ((c : Thread nD τ).loc main_arg5)) := by
  obtain ⟨_, h34, h46, h48, h50, h53⟩ := step3 m c (B6 m c) (carried_B6 m c)
  have hx : B6 m c main_v74 = X2 m c := Function.update_self ..
  unfold X3
  rw [arrAt3_5]
  show Cert.Spec.layerResT (StableHlo.after hostOps3 (B6 m c) main_v74) (StableHlo.after hostOps3 (B6 m c) main_v86)
    (StableHlo.after hostOps3 (B6 m c) main_v88) (StableHlo.after hostOps3 (B6 m c) main_v90)
    (StableHlo.after hostOps3 (B6 m c) main_v93) = _
  rw [h34, h46, Cert.Spec.aggMul_eq, hx]
  exact lay_eq2 3 _ _ _ _ _ _ _ _ h48 h50 h53

end Cert.KernelIdeal.Hand

end
-- ==== Proof.KiPoolVal.lean ====
import proofs.«405071_j1614907703383_1_alg».proof.Proof.KiPool
import proofs.«405071_j1614907703383_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Entry (g, d) of the block product taken over the rows: the sum over rows r of A(r, g) · B(r, d). -/
theorem pool_matmul_apply (A : FVec Ideal S5000x64 .bf16) (B : FVec Ideal S5000x128 .bf16) (g : Fin 64) (d : Fin 128) :
    matmul (F := Ideal) dot_S5000x64_S5000x128_S64x128_0_0_1_1_n_n none A B (constant S64x128 .f32 0x00000000#32) (ix2 g d)
      = ∑ r : Fin 5000, A (ix2 r g) * B (ix2 r d) := by
  show FloatOps.matmul _ none A B _ (ix2 g d) = _
  rw [Ideal.matmul_constant_zero_apply, ← Equiv.sum_comp (contrEquiv1 dot_S5000x64_S5000x128_S64x128_0_0_1_1_n_n 5000 rfl rfl).symm]
  refine Finset.sum_congr rfl fun r _ => ?_
  have hc := contrEquiv1_symm_val dot_S5000x64_S5000x128_S64x128_0_0_1_1_n_n 5000 rfl rfl r
  congr 2 <;> funext ax <;> apply Fin.ext <;>
    (match ax with
    | ⟨0, _⟩ => first
      | exact (dot_S5000x64_S5000x128_S64x128_0_0_1_1_n_n.lhsIdx_val_of_single rfl (ix2 g d) _).trans hc
      | exact (dot_S5000x64_S5000x128_S64x128_0_0_1_1_n_n.rhsIdx_val_of_single rfl (ix2 g d) _).trans hc
    | ⟨1, _⟩ => rfl)

theorem k4_pay1_apply (i : S64x128.Idx) : k4_pay1 (F := Ideal) i = 0 := by
  unfold k4_pay1
  rw [shapeCast_self]
  exact Ideal.ofBits_zero_f32

theorem k4_pay2_apply (x : Vec Ideal S5000x128 .f32) (oh : Vec Ideal S5000x64 .bf16) (a : Vec Ideal S64x128 .f32)
    (g : Fin 64) (d : Fin 128) :
    k4_pay2 x oh a (ix2 g d) = a (ix2 g d) + ∑ r : Fin 5000, oh (ix2 r g) * x (ix2 r d) := by
  unfold k4_pay2
  simp only [shapeCast_self]
  exact congrArg (a (ix2 g d) + ·) (pool_matmul_apply oh x g d)

variable (V : (c : Dev nD) → (b : Ref sig .tc) → Buf (Elt Ideal) ((c : Thread nD τ).loc b))

abbrev Xin4 (c : Dev nD) : Cert.Spec.SX.Idx → EReal := V c (Pipeline.arrRef spec4 0)
abbrev OH4 (c : Dev nD) : Cert.Spec.SOH.Idx → EReal := V c (Pipeline.arrRef spec4 1)

theorem idx_facts4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

theorem row_lt (t : Fin cfg4.N) (r : Fin 5000) : 5000 * t.val + r.val < 50000 := by
  have h : cfg4.N = 10 := N_4
  have := t.isLt; have := r.isLt; omega

/-- Node m's term of the pooled entry (g, d); zero past the last node. -/
def poolTerm (x : Cert.Spec.SX.Idx → EReal) (oh : Cert.Spec.SOH.Idx → EReal) (g : Fin 64) (d : Fin 128) (m : ℕ) : EReal :=
  if h : m < 50000 then oh (ix2 ⟨m, h⟩ g) * x (ix2 ⟨m, h⟩ d) else 0

/-- Row r of either block at point t is row 5000 t + r of its array. -/
theorem iblk4_apply (c : Dev nD) (t : Fin cfg4.N) (r : Fin 5000) (g : Fin 64) (d : Fin 128) :
    @HMul.hMul EReal EReal EReal _ ((iblk4 V c 1 t : S5000x64.Idx → EReal) (ix2 r g))
        ((iblk4 V c 0 t : S5000x128.Idx → EReal) (ix2 r d))
      = poolTerm (Xin4 V c) (OH4 V c) g d (5000 * t.val + r.val) := by
  obtain ⟨e0, e1, e2, e3⟩ := idx_facts4 t
  unfold poolTerm
  rw [dif_pos (row_lt t r)]
  congr 1
  · refine congrArg (OH4 V c) (funext fun a => Fin.ext ?_)
    match a with
    | ⟨0, _⟩ => show win4_1.index t (0 : Fin 2) * 5000 + 1 * r.val = 5000 * t.val + r.val; omega
    | ⟨1, _⟩ => show win4_1.index t (1 : Fin 2) * 64 + 1 * g.val = g.val; omega
  · refine congrArg (Xin4 V c) (funext fun a => Fin.ext ?_)
    match a with
    | ⟨0, _⟩ => show win4_0.index t (0 : Fin 2) * 5000 + 1 * r.val = 5000 * t.val + r.val; omega
    | ⟨1, _⟩ => show win4_0.index t (1 : Fin 2) * 128 + 1 * d.val = d.val; omega

/-- After n points the running sum holds the terms of the first 5000 n nodes: induction on n. -/
theorem acc4_apply (c : Dev nD) (g : Fin 64) (d : Fin 128) :
    ∀ n : ℕ, n ≤ 10 → acc4 V c n (ix2 g d) = ∑ m ∈ Finset.range (5000 * n), poolTerm (Xin4 V c) (OH4 V c) g d m
  | 0, _ => by
    rw [acc4, k4_pay1_apply]; rfl
  | n + 1, hn => by
    have hlt : n < cfg4.N := by have : cfg4.N = 10 := N_4; omega
    have hprev : (if n = 0 then k4_pay1 else acc4 V c n) = acc4 V c n := by cases n <;> rfl
    rw [acc4, dif_pos hlt, hprev, k4_pay2_apply, acc4_apply c g d n (by omega),
      show 5000 * (n + 1) = 5000 * n + 5000 from by ring, Finset.sum_range_add,
      ← Fin.sum_univ_eq_sum_range (fun x => poolTerm (Xin4 V c) (OH4 V c) g d (5000 * n + x)) 5000]
    exact congrArg _ (Finset.sum_congr rfl fun r _ => iblk4_apply V c ⟨n, hlt⟩ r g d)

/-- After all ten points: the pooled sums over every node. -/
theorem acc4_ten (c : Dev nD) :
    acc4 V c 10 = Cert.Spec.poolT (V c (Pipeline.arrRef spec4 0)) (V c (Pipeline.arrRef spec4 1)) :=
  Cert.Spec.ext2 fun g d => by
    show _ = ∑ m : Fin 50000, OH4 V c (ix2 m g) * Xin4 V c (ix2 m d)
    rw [acc4_apply V c g d 10 (le_refl _), show 5000 * 10 = 50000 from rfl,
      ← Fin.sum_univ_eq_sum_range (fun m => poolTerm (Xin4 V c) (OH4 V c) g d m) 50000]
    exact Finset.sum_congr rfl fun m _ => by unfold poolTerm; rw [dif_pos m.isLt]

theorem idx_facts4_2 : ∀ t : Fin cfg4.N, win4_2.index t (0 : Fin 2) = 0 ∧ win4_2.index t (1 : Fin 2) = 0 :=
  (by decide +kernel : ∀ t : Fin grid4.N, _)

theorem emb4_2 (t : Fin cfg4.N) (y : S64x128.Idx) : ((cfg4.win 2).blk t).view.emb y = y := by
  obtain ⟨e0, e1⟩ := idx_facts4_2 t
  funext a; apply Fin.ext
  match a with
  | ⟨0, _⟩ => show win4_2.index t (0 : Fin 2) * 64 + 1 * (y 0).val = (y 0).val; omega
  | ⟨1, _⟩ => show win4_2.index t (1 : Fin 2) * 128 + 1 * (y 1).val = (y 1).val; omega

/-- The output after the region is the running sum after the last point. -/
theorem arrAt4_2 (c : Dev nD) :
    (dat4 V c).arrAt 2 cfg4.N = Cert.Spec.poolT (V c (Pipeline.arrRef spec4 0)) (V c (Pipeline.arrRef spec4 1)) := by
  have hN : cfg4.N = 10 := N_4
  rw [← acc4_ten V c]
  refine (dat4 V c).arrAt_eq_of_cover 2 _ (fun t hf => ?_) (fun i => ⟨t4_9, (flush4_2 t4_9).mpr rfl, ?_⟩)
  · have h9 : t.val = 9 := by have := (flush4_2 t).mp hf; have := t.isLt; omega
    funext y
    show (dat4 V c).after 2 t y = acc4 V c 10 (((cfg4.win 2).blk t).view.emb y)
    rw [emb4_2, after4_2_last V c t h9]
  · have h := ((cfg4.win 2).blk t4_9).view.emb_mem_set i
    rw [emb4_2] at h
    exact h

end Cert.KernelIdeal.Hand

end
-- ==== Proof.OneHotRead.lean ====
import proofs.«405071_j1614907703383_1_alg».proof.KernelIdeal
import proofs.«405071_j1614907703383_1_alg».proof.Proof.Spec
import Idealize.ShloMosaic.PureOps.Ideal.Laws
import Idealize.ShloMosaic.Lib.ValueIdx
import Idealize.ShloMosaic.Lib.IdealHost

noncomputable section

namespace Cert.Proof.OneHotRead

open Idealize.ShloMosaic Idealize.ShloMosaic.ValueIdx Cert.KernelIdeal
open Cert.KernelIdeal.Facts₀

variable [Facts₀]

def ohK (batch : Cert.Spec.SN.Idx → BitVec 32) : Cert.Spec.SOH.Idx → EReal :=
  uitofp (F := Ideal) .bf16
    (cmpi .eq
      (broadcastInDim S50000x64 ![0, 1] bcast_S50000x1_S50000x64_0_1 (broadcastInDim S50000x1 ![0] bcast_S50000_S50000x1_0 batch))
      (broadcastInDim S50000x64 ![0, 1] bcast_S1x64_S50000x64_0_1 (broadcastInDim S1x64 ![1] bcast_S64_S1x64_1 (iotaInDim S64 32 0))))

theorem ids_at (batch : Cert.Spec.SN.Idx → BitVec 32) (n : Fin 50000) (g : Fin 64) :
    broadcastInDim S50000x64 ![0, 1] bcast_S50000x1_S50000x64_0_1 (broadcastInDim S50000x1 ![0] bcast_S50000_S50000x1_0 batch)
      (ix2 n g) = batch (ix1 n) := by
  unfold broadcastInDim
  refine congrArg batch (funext fun a => ?_)
  match a with
  | ⟨0, _⟩ => rfl

theorem iota_at (n : Fin 50000) (g : Fin 64) :
    broadcastInDim S50000x64 ![0, 1] bcast_S1x64_S50000x64_0_1 (broadcastInDim S1x64 ![1] bcast_S64_S1x64_1 (iotaInDim S64 32 0))
      (ix2 n g) = BitVec.ofNat 32 g.val := by
  unfold broadcastInDim iotaInDim
  rfl

theorem toInt_ofNat_small (g : Nat) (hg : g < 64) : (BitVec.ofNat 32 g).toInt = (g : Int) := by
  rw [BitVec.toInt_eq_toNat_cond, BitVec.toNat_ofNat]
  have h : g % 2 ^ 32 = g := Nat.mod_eq_of_lt (by omega)
  rw [h]
  split_ifs with h2
  · rfl
  · exfalso; omega

theorem sel_iff (batch : Cert.Spec.SN.Idx → BitVec 32) (n : Fin 50000) (g : Fin 64) :
    Cert.Spec.sel batch n g ↔ batch (ix1 n) = BitVec.ofNat 32 g.val := by
  unfold Cert.Spec.sel
  constructor
  · intro h
    exact BitVec.eq_of_toInt_eq (h.trans (toInt_ofNat_small g.val g.isLt).symm)
  · intro h
    rw [h]; exact toInt_ofNat_small g.val g.isLt

theorem oh_at (batch : Cert.Spec.SN.Idx → BitVec 32) (n : Fin 50000) (g : Fin 64) :
    ohK batch (ix2 n g) = if Cert.Spec.sel batch n g then Cert.Spec.one else 0 := by
  unfold ohK
  show FloatOps.uitofp (F := Ideal) .bf16 (IntOp.cmpi .eq (broadcastInDim S50000x64 ![0, 1] bcast_S50000x1_S50000x64_0_1 (broadcastInDim S50000x1 ![0] bcast_S50000_S50000x1_0 batch) (ix2 n g)) (broadcastInDim S50000x64 ![0, 1] bcast_S1x64_S50000x64_0_1 (broadcastInDim S1x64 ![1] bcast_S64_S1x64_1 (iotaInDim S64 32 0)) (ix2 n g))) = _
  rw [ids_at, iota_at]
  by_cases h : Cert.Spec.sel batch n g
  · rw [if_pos h, (sel_iff batch n g).1 h, Cert.Spec.one_eq]
    have hc : IntOp.cmpi .eq (BitVec.ofNat 32 g.val) (BitVec.ofNat 32 g.val) = 1#1 := by simp [IntOp.cmpi]
    rw [hc]
    show (((1#1 : BitVec 1).toNat : ℝ) : EReal) = 1
    simp
  · rw [if_neg h]
    have hne : batch (ix1 n) ≠ BitVec.ofNat 32 g.val := fun e => h ((sel_iff batch n g).2 e)
    have hb : (batch (ix1 n) == BitVec.ofNat 32 g.val) = false := beq_eq_false_iff_ne.2 hne
    have hc : IntOp.cmpi .eq (batch (ix1 n)) (BitVec.ofNat 32 g.val) = 0#1 := by
      unfold IntOp.cmpi
      show BitVec.ofBool (batch (ix1 n) == BitVec.ofNat 32 g.val) = 0#1
      rw [hb]; rfl
    rw [hc]
    show (((0#1 : BitVec 1).toNat : ℝ) : EReal) = 0
    simp

theorem pool_onehot (X : Cert.Spec.SX.Idx → EReal) (batch : Cert.Spec.SN.Idx → BitVec 32) :
    Cert.Spec.poolT X (ohK batch) = Cert.Spec.mk2 (Cert.Spec.poolSum X batch) := by
  apply Cert.Spec.ext2
  intro g d
  show (∑ n : Fin 50000, ohK batch (ix2 n g) * X (ix2 n d)) = Cert.Spec.poolSum X batch g d
  unfold Cert.Spec.poolSum
  rw [Finset.sum_filter]
  refine Finset.sum_congr rfl fun n _ => ?_
  rw [oh_at]
  by_cases h : Cert.Spec.sel batch n g
  · rw [if_pos h, if_pos h, Cert.Spec.one_eq, one_mul]
  · rw [if_neg h, if_neg h, zero_mul]

theorem drop_at (n : Fin 50000) (g' : Fin 64) :
    reducesTo_S50000x64_S64_d0.drop (ix2 n g' : S50000x64.Idx) = (ix1 g' : S64.Idx) := by
  funext b
  match b with
  | ⟨0, _⟩ => rfl

theorem count_onehot (batch : Cert.Spec.SN.Idx → BitVec 32) :
    Host.reduceAdd (F := Ideal) (φ := .f32) (extf .f32 (ohK batch) bitsLt_bf16_f32) (constant S_ .f32 0x00000000#32)
      reducesTo_S50000x64_S64_d0 h_S_ = fun g => Cert.Spec.cntSum batch (g 0) := by
  funext i
  obtain ⟨g, rfl⟩ : ∃ (g : Fin 64), i = ix1 g := ⟨i 0, eq_ix1 i⟩
  rw [hostReduceAdd_apply]
  show Ideal.hostReduceAdd _ _ _ _ = Cert.Spec.cntSum batch g
  unfold Ideal.hostReduceAdd Cert.Spec.cntSum
  rw [constant_apply, Ideal.ofBits_zero_f32, zero_add, Finset.sum_filter, Finset.sum_filter, sum_idx2]
  refine Finset.sum_congr rfl fun n _ => ?_
  have hcol : ∀ g' : Fin 64, (reducesTo_S50000x64_S64_d0.drop (ix2 n g' : S50000x64.Idx) = (ix1 g : S64.Idx)) ↔ g' = g := by
    intro g'
    rw [drop_at]
    constructor
    · intro e; exact congrFun e 0
    · rintro rfl; rfl
  simp only [hcol, extf_apply]
  rw [Finset.sum_ite_eq' Finset.univ g, if_pos (Finset.mem_univ g), oh_at]
  rfl

end Cert.Proof.OneHotRead

end
-- ==== Proof.KiValTail.lean ====
import proofs.«405071_j1614907703383_1_alg».proof.Proof.KiHostDefs
import proofs.«405071_j1614907703383_1_alg».proof.Proof.KiPoolVal
import proofs.«405071_j1614907703383_1_alg».proof.Proof.OneHotRead
import Idealize.ShloMosaic.Lib.IdealHost
import Idealize.ShloMosaic.Lib.Pipeline.Value

set_option maxRecDepth 4000

noncomputable section

namespace Cert.KernelIdeal.Hand

open Cert.KernelIdeal Cert.KernelIdeal.Gen
open Idealize.ShloMosaic Idealize.ShloMosaic.TcCoe Idealize.ShloMosaic.ValueIdx
open Cert.Proof.OneHotRead (ohK pool_onehot count_onehot)

variable (m : (ℓ : Loc nD τ sig) → Buf (Elt Ideal) ℓ)

theorem h4_v101 (W : Valuation τ sig (Elt Ideal)) :
    (StableHlo.after hostOps4 W main_v101 : S50000x64.Idx → EReal) = ohK (W main_arg2) := by
  after_results; rfl

theorem h4_v103 (W : Valuation τ sig (Elt Ideal)) :
    (StableHlo.after hostOps4 W main_v103 : S64.Idx → EReal) =
      Host.reduceAdd (F := Ideal) (φ := .f32) (extf .f32 (ohK (W main_arg2)) bitsLt_bf16_f32)
        (constant (F := Ideal) S_ .f32 0x00000000#32) reducesTo_S50000x64_S64_d0 h_S_ := by
  after_results; rfl

theorem h4_v94 (W : Valuation τ sig (Elt Ideal)) : StableHlo.after hostOps4 W main_v94 = W main_v94 :=
  StableHlo.after_of_writes_sub hostOps4 _ hostOps4_writes (by decide)

theorem h5_v109 (W : Valuation τ sig (Elt Ideal)) :
    (StableHlo.after hostOps5 W main_v109 : S64x128.Idx → EReal) =
      Host.divf (F := Ideal) (W main_v104 : S64x128.Idx → EReal)
        (broadcastInDim S64x128 ![0, 1] bcast_S64x1_S64x128_0_1 (broadcastInDim S64x1 ![0] bcast_S64_S64x1_0
          (maximumf (W main_v103 : S64.Idx → EReal)
            (broadcastInDim S64 ![] bcast_S_S64 (constant (F := Ideal) S_ .f32 0x3F800000#32))))) := by
  after_results

theorem tail_val (A : S64x128.Idx → EReal) (Cn : S64.Idx → EReal) (P : Fin 64 → Fin 128 → EReal) (cn : Fin 64 → EReal)
    (hA : A = Cert.Spec.mk2 P) (hC : Cn = fun g => cn (g 0)) :
    Host.divf (F := Ideal) (φ := .f32) A
        (broadcastInDim S64x128 ![0, 1] bcast_S64x1_S64x128_0_1 (broadcastInDim S64x1 ![0] bcast_S64_S64x1_0
          (maximumf (F := Ideal) (φ := .f32) Cn
            (broadcastInDim S64 ![] bcast_S_S64 (constant (F := Ideal) S_ .f32 0x3F800000#32)))))
      = Cert.Spec.mk2 fun g d => Ideal.div (P g d) (max (cn g) Cert.Spec.one) := by
  subst hA hC
  refine Cert.Spec.ext2 fun g d => ?_
  rw [hostDivf_apply, Cert.Spec.mk2_ix2, Cert.Spec.mk2_ix2]
  rw [broadcastInDim_apply (k := ix2 g 0) (hk := by intro a; fin_cases a <;> rfl)]
  rw [broadcastInDim_apply (k := ix1 g) (hk := by intro a; fin_cases a; rfl)]
  rw [maximumf_apply, broadcastInDim_scalar_apply]
  rfl

theorem B8_arg2 (c : Dev nD) : B8 m c main_arg2 = m ((c : Thread nD τ).loc main_arg2) := by
  rw [← V8_eq]
  exact (V8_of m (outs m) c main_arg2 (by decide)).trans <| (V7_of m (outs m) c main_arg2 (by decide)).trans <|
    (V6_of m (outs m) c main_arg2 (by decide)).trans <| (V5_of m (outs m) c main_arg2 (by decide)).trans <|
    (V4_of m (outs m) c main_arg2 (by decide)).trans <| (V3_of m (outs m) c main_arg2 (by decide)).trans <|
    (V2_of m (outs m) c main_arg2 (by decide)).trans <| (V1_of m c main_arg2 (by decide)).trans rfl

theorem B9_v101 (c : Dev nD) :
    (B9 m c main_v101 : S50000x64.Idx → EReal) = ohK (m ((c : Thread nD τ).loc main_arg2)) :=
  (h4_v101 (B8 m c)).trans (by rw [B8_arg2 m c])

theorem B9_v103 (c : Dev nD) :
    (B9 m c main_v103 : S64.Idx → EReal) = fun g => Cert.Spec.cntSum (m ((c : Thread nD τ).loc main_arg2)) (g 0) :=
  (h4_v103 (B8 m c)).trans (by rw [B8_arg2 m c]; exact count_onehot _)

theorem B9_v94 (c : Dev nD) : B9 m c main_v94 = X3 m c :=
  (h4_v94 (B8 m c)).trans (Function.update_self ..)

theorem X4_eq (c : Dev nD) :
    X4 m c = Cert.Spec.mk2 (Cert.Spec.poolSum (X3 m c) (m ((c : Thread nD τ).loc main_arg2))) := by
  unfold X4
  rw [arrAt4_2]
  show Cert.Spec.poolT (B9 m c main_v94) (B9 m c main_v101) = _
  rw [B9_v101, B9_v94, pool_onehot]

theorem kernel_tail (c : Dev nD) :
    (B11 m c main_v109 : S64x128.Idx → EReal) = Cert.Spec.out (X3 m c) (m ((c : Thread nD τ).loc main_arg2)) := by
  refine (h5_v109 (B10 m c)).trans ?_
  have e104 : B10 m c main_v104 = X4 m c := Function.update_self ..
  have e103 : B10 m c main_v103 = B9 m c main_v103 := Function.update_of_ne (by decide) ..
  rw [e104, e103]
  exact tail_val _ _ _ _ (X4_eq m c) (B9_v103 m c)

end Cert.KernelIdeal.Hand

end
-- ==== Proof.KiValue.lean ====
import proofs.«405071_j1614907703383_1_alg».proof.Proof.KiVal0
import proofs.«405071_j1614907703383_1_alg».proof.Proof.KiValStep
import proofs.«405071_j1614907703383_1_alg».proof.Proof.KiValStep2
import proofs.«405071_j1614907703383_1_alg».proof.Proof.KiValStep3
import proofs.«405071_j1614907703383_1_alg».proof.Proof.KiValTail

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

theorem kernel_value (c : Dev nD) :
    (B11 m c main_v109 : S64x128.Idx → EReal)
      = Cert.Spec.out (Cert.Spec.net (SK m c) (CNTK m c) (m ((c : Thread nD τ).loc main_arg0))
          (m ((c : Thread nD τ).loc main_arg3)) (m ((c : Thread nD τ).loc main_arg4)) (m ((c : Thread nD τ).loc main_arg5)))
        (m ((c : Thread nD τ).loc main_arg2)) := by
  rw [kernel_tail m c, X3_eq m c, X2_eq m c, X1_eq m c, X0_eq m c]
  rfl

end Cert.KernelIdeal.Hand

end
-- ==== Proof.RefRunRes.lean ====
import proofs.«405071_j1614907703383_1_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 82400000 in
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v169) = after (ops (F := F)) (launchContents m c) (Proc.devRef .tc main_v169)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      h c main_v169,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_after m ρ)

end Cert.ReferenceIdeal.ValueP

end
-- ==== Proof.ScatterRead.lean ====
import proofs.«405071_j1614907703383_1_alg».proof.ReferenceIdeal
import proofs.«405071_j1614907703383_1_alg».proof.Proof.Spec
import Idealize.ShloMosaic.PureOps.Ideal.Laws
import Idealize.ShloMosaic.Lib.ValueIdx
import Idealize.ShloMosaic.Lib.IdealHost
import Idealize.ShloMosaic.Lib.ValueIdxRank1

noncomputable section

namespace Cert.Proof.ScatterRead

open Idealize.ShloMosaic Idealize.ShloMosaic.ValueIdx Cert.ReferenceIdeal
open Cert.ReferenceIdeal.Facts₀

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some_inj]
    constructor
    · intro e a
      have := congrArg (fun f => ((f a).val : Int)) e
      simp only at this
      rw [← this]
      exact (Int.toNat_of_nonneg (h a).1).symm
    · intro e
      funext a
      apply Fin.ext
      show (d.start j idx a + (d.window j a : Int)).toNat = (i a).val
      rw [e a]; rfl
  · constructor
    · intro e; exact absurd e (by simp)
    · intro e
      exfalso; apply h
      intro a
      rw [e a]
      have := (i a).isLt
      omega

variable [Facts₀]

local notation "dP" => scatter_S64x128_S50000x1_S50000x128_1_0_0_1

theorem pool_siIdx (n : Fin 50000) (dd : Fin 128) (c : Fin (dP).scatterDimsToOperandDims.length) :
    (dP).siIdx (ix2 n dd : S50000x128.Idx) c = (ix2 n 0 : S50000x1.Idx) := by
  funext b
  match b with
  | ⟨0, _⟩ => rfl
  | ⟨1, _⟩ =>
    apply Fin.ext
    have := c.isLt
    show c.val = 0
    have h1 : (dP).scatterDimsToOperandDims.length = 1 := rfl
    omega

theorem pool_start0 (idx : IVec S50000x1 32) (n : Fin 50000) (dd : Fin 128) :
    (dP).start (ix2 n dd : S50000x128.Idx) idx 0 = (idx (ix2 n 0)).toInt := by
  unfold ScatterDims.start
  rw [dif_pos (show (0 : Fin S64x128.rank) ∈ (dP).scatterDimsToOperandDims from (by decide : (0 : Fin 2) ∈ ([0] : List (Fin 2))))]
  rw [pool_siIdx]

theorem pool_start1 (idx : IVec S50000x1 32) (n : Fin 50000) (dd : Fin 128) :
    (dP).start (ix2 n dd : S50000x128.Idx) idx 1 = 0 := by
  unfold ScatterDims.start
  rw [dif_neg (show (1 : Fin S64x128.rank) ∉ (dP).scatterDimsToOperandDims from (by decide : (1 : Fin 2) ∉ ([0] : List (Fin 2))))]

theorem pool_window0 (n : Fin 50000) (dd : Fin 128) : (dP).window (ix2 n dd : S50000x128.Idx) 0 = 0 := by
  unfold ScatterDims.window
  rw [dif_neg (show (0 : Fin S64x128.rank) ∉ (dP).sKept from (by decide : (0 : Fin S64x128.rank) ∉ S64x128.kept ([0] : List (Fin S64x128.rank))))]

theorem pool_window1 (n : Fin 50000) (dd : Fin 128) : (dP).window (ix2 n dd : S50000x128.Idx) 1 = dd.val := by
  unfold ScatterDims.window
  rw [dif_pos (show (1 : Fin S64x128.rank) ∈ (dP).sKept from (by decide : (1 : Fin S64x128.rank) ∈ S64x128.kept ([0] : List (Fin S64x128.rank))))]
  rfl

theorem pool_lands (idx : IVec S50000x1 32) (n : Fin 50000) (dd : Fin 128) (g : Fin 64) (d : Fin 128) :
    (dP).resultIdx? (ix2 n dd : S50000x128.Idx) idx = some (ix2 g d : S64x128.Idx) ↔
      (idx (ix2 n 0)).toInt = (g.val : Int) ∧ dd = d := by
  rw [resultIdx?_eq_some_iff, Fin.forall_fin_two, pool_start0, pool_start1, pool_window0, pool_window1]
  show (idx (ix2 n 0)).toInt + ((0 : Nat) : Int) = (g.val : Int) ∧ (0 : Int) + (dd.val : Int) = (d.val : Int) ↔ _
  rw [Fin.ext_iff]
  omega

theorem idx_bcast (batch : Cert.Spec.SN.Idx → BitVec 32) (n : Fin 50000) :
    broadcastInDim S50000x1 ![0] bcast_S50000_S50000x1_0 batch (ix2 n 0) = batch (ix1 n) := by
  unfold broadcastInDim
  refine congrArg batch (funext fun a => ?_)
  match a with
  | ⟨0, _⟩ => rfl

theorem sum_col {n : Nat} (A : Prop) [Decidable A] (d : Fin n) (f : Fin n → EReal) :
    (∑ dd : Fin n, if A ∧ dd = d then f dd else 0) = if A then f d else 0 := by
  by_cases hA : A
  · simp [hA, Finset.sum_ite_eq']
  · simp [hA]

theorem pool_scatter (X : Cert.Spec.SX.Idx → EReal) (batch : Cert.Spec.SN.Idx → BitVec 32) :
    Host.scatterAdd (F := Ideal) (φ := .f32) scatter_S64x128_S50000x1_S50000x128_1_0_0_1
      (broadcastInDim S64x128 ![] bcast_S_S64x128 (constant S_ .f32 0x00000000#32))
      (broadcastInDim S50000x1 ![0] bcast_S50000_S50000x1_0 batch) X
    = Cert.Spec.mk2 (Cert.Spec.poolSum X batch) := by
  funext i
  obtain ⟨g, d, rfl⟩ : ∃ (g : Fin 64) (d : Fin 128), i = ix2 g d := ⟨i 0, i 1, eq_ix2 i⟩
  rw [Cert.Spec.mk2_ix2]
  show Ideal.hostScatterAdd _ _ _ _ _ = _
  unfold Ideal.hostScatterAdd Cert.Spec.poolSum
  rw [broadcastInDim_scalar_apply, constant_apply, Ideal.ofBits_zero_f32, zero_add]
  rw [Finset.sum_filter, Finset.sum_filter, sum_idx2]
  refine Finset.sum_congr rfl fun n _ => ?_
  simp only [pool_lands]
  rw [idx_bcast]
  exact sum_col (Cert.Spec.sel batch n g) d fun dd => X (ix2 n dd)

local notation "dC" => scatter_S64_S50000x1_S50000_n_0_0_1

theorem count_siIdx (n : Fin 50000) (c : Fin (dC).scatterDimsToOperandDims.length) :
    (dC).siIdx (ix1 n : S50000.Idx) c = (ix2 n 0 : S50000x1.Idx) := by
  funext b
  match b with
  | ⟨0, _⟩ => rfl
  | ⟨1, _⟩ =>
    apply Fin.ext
    have := c.isLt
    show c.val = 0
    have h1 : (dC).scatterDimsToOperandDims.length = 1 := rfl
    omega

theorem count_start0 (idx : IVec S50000x1 32) (n : Fin 50000) :
    (dC).start (ix1 n : S50000.Idx) idx 0 = (idx (ix2 n 0)).toInt := by
  unfold ScatterDims.start
  rw [dif_pos (show (0 : Fin S64.rank) ∈ (dC).scatterDimsToOperandDims from (by decide : (0 : Fin 1) ∈ ([0] : List (Fin 1))))]
  rw [count_siIdx]

theorem count_window0 (n : Fin 50000) : (dC).window (ix1 n : S50000.Idx) 0 = 0 := by
  unfold ScatterDims.window
  rw [dif_neg (show (0 : Fin S64.rank) ∉ (dC).sKept from (by decide : (0 : Fin S64.rank) ∉ S64.kept ([0] : List (Fin S64.rank))))]

theorem count_lands (idx : IVec S50000x1 32) (n : Fin 50000) (g : Fin 64) :
    (dC).resultIdx? (ix1 n : S50000.Idx) idx = some (ix1 g : S64.Idx) ↔ (idx (ix2 n 0)).toInt = (g.val : Int) := by
  rw [resultIdx?_eq_some_iff, Fin.forall_fin_one, count_start0, count_window0]
  show (idx (ix2 n 0)).toInt + ((0 : Nat) : Int) = (g.val : Int) ↔ _
  omega

theorem count_scatter (batch : Cert.Spec.SN.Idx → BitVec 32) :
    Host.scatterAdd (F := Ideal) (φ := .f32) scatter_S64_S50000x1_S50000_n_0_0_1
      (broadcastInDim S64 ![] bcast_S_S64 (constant S_ .f32 0x00000000#32))
      (broadcastInDim S50000x1 ![0] bcast_S50000_S50000x1_0 batch)
      (broadcastInDim S50000 ![] bcast_S_S50000 (constant S_ .f32 0x3F800000#32))
    = fun g => Cert.Spec.cntSum batch (g 0) := by
  funext i
  obtain ⟨g, rfl⟩ : ∃ (g : Fin 64), i = ix1 g := ⟨i 0, eq_ix1 i⟩
  show Ideal.hostScatterAdd _ _ _ _ _ = Cert.Spec.cntSum batch g
  unfold Ideal.hostScatterAdd Cert.Spec.cntSum
  rw [broadcastInDim_scalar_apply, constant_apply, Ideal.ofBits_zero_f32, zero_add]
  rw [Finset.sum_filter, Finset.sum_filter, ← Equiv.sum_comp (idxEquiv1 (n := 50000)).symm]
  refine Finset.sum_congr rfl fun n _ => ?_
  show (if (dC).resultIdx? (ix1 n : S50000.Idx) _ = some (ix1 g : S64.Idx) then _ else _) = _
  simp only [count_lands]
  rw [idx_bcast, broadcastInDim_scalar_apply, constant_apply]
  rfl

end Cert.Proof.ScatterRead

end
-- ==== Proof.RefVal1.lean ====
import proofs.«405071_j1614907703383_1_alg».proof.Proof.RefRunP
import proofs.«405071_j1614907703383_1_alg».proof.Proof.Spec
import proofs.«405071_j1614907703383_1_alg».proof.Proof.ScatterRead
import Idealize.ShloMosaic.Lib.ValueLayout
import Idealize.ShloMosaic.Lib.StackMember
import Idealize.ShloMosaic.Lib.Pipeline.Frame

noncomputable section

namespace Cert.Proof.RefVal

open Cert.ReferenceIdeal Cert.ReferenceIdeal.Gen Cert.ReferenceIdeal.ValueP Idealize.ShloMosaic Idealize.ShloMosaic.ValueIdx Idealize.ShloMosaic.StableHlo

def wT (l : Fin 4) (hs : S4x128x128.Slices ![l.val, 0, 0] S1x128x128) (W : Cert.Spec.SW.Idx → EReal) : Cert.Spec.SWT.Idx → EReal :=
  transpose S128x128 [1, 0] (shapeCast S128x128 (extractStridedSlice S1x128x128 ![l.val, 0, 0] W hs) shapeCasts_S1x128x128_S128x128)
    transposes_S128x128_S128x128_1_0

theorem wT_apply (l : Fin 4) (hs : S4x128x128.Slices ![l.val, 0, 0] S1x128x128) (W : Cert.Spec.SW.Idx → EReal) (k d : Fin 128) :
    wT l hs W (ix2 k d) = W (ix3 l d k) := by
  unfold wT
  rw [transpose_ix2_apply, shapeCast_1ab_ab_apply]
  exact extractStridedSlice_apply _ W hs _ (ix3 l d k) fun a => match a with
    | ⟨0, _⟩ => by show l.val = l.val + 0; omega
    | ⟨1, _⟩ => by show d.val = 0 + d.val; omega
    | ⟨2, _⟩ => by show k.val = 0 + k.val; omega

def bB (l : Fin 4) (hs : S4x128.Slices ![l.val, 0] S1x128) (bl : Cert.Spec.SB.Idx → EReal) : Cert.Spec.SX.Idx → EReal :=
  broadcastInDim S50000x128 ![0, 1] bcast_S1x128_S50000x128_0_1
    (broadcastInDim S1x128 ![1] bcast_S128_S1x128_1 (shapeCast S128 (extractStridedSlice S1x128 ![l.val, 0] bl hs) shapeCasts_S1x128_S128))

theorem bB_apply (l : Fin 4) (hs : S4x128.Slices ![l.val, 0] S1x128) (bl : Cert.Spec.SB.Idx → EReal) (n : Fin 50000) (d : Fin 128) :
    bB l hs bl (ix2 n d) = bl (ix2 l d) := by
  unfold bB
  rw [broadcastInDim_apply _ _ _ (ix2 n d) (ix2 (0 : Fin 1) d) (fun a => match a with | ⟨0, _⟩ => rfl | ⟨1, _⟩ => rfl),
    broadcastInDim_apply _ _ _ (ix2 (0 : Fin 1) d) (ix1 d) (fun a => match a with | ⟨0, _⟩ => rfl),
    shapeCast_1a_a_apply]
  exact extractStridedSlice_apply _ bl hs _ (ix2 l d) fun a => match a with
    | ⟨0, _⟩ => by show l.val = l.val + 0; omega
    | ⟨1, _⟩ => by show d.val = 0 + d.val; omega

def linArr (l : Fin 4) (h3 : S4x128x128.Slices ![l.val, 0, 0] S1x128x128) (h4 : S4x128.Slices ![l.val, 0] S1x128)
    (x agg : Cert.Spec.SX.Idx → EReal) (Wl : Cert.Spec.SW.Idx → EReal) (bl : Cert.Spec.SB.Idx → EReal) (Wr : Cert.Spec.SW.Idx → EReal) :
    FVec Ideal S50000x128 .f32 :=
  addf (addf (Host.dotGeneral dot_S50000x128_S128x128_S50000x128_1_0_0_1_n_n none (φ₁ := .f32) (φ₂ := .f32) agg (wT l h3 Wl)) (bB l h4 bl))
    (Host.dotGeneral dot_S50000x128_S128x128_S50000x128_1_0_0_1_n_n none (φ₁ := .f32) (φ₂ := .f32) x (wT l h3 Wr))

theorem linArr_apply (l : Fin 4) (h3 : S4x128x128.Slices ![l.val, 0, 0] S1x128x128) (h4 : S4x128.Slices ![l.val, 0] S1x128)
    (x agg : Cert.Spec.SX.Idx → EReal) (Wl : Cert.Spec.SW.Idx → EReal) (bl : Cert.Spec.SB.Idx → EReal) (Wr : Cert.Spec.SW.Idx → EReal)
    (n : Fin 50000) (d : Fin 128) :
    linArr l h3 h4 x agg Wl bl Wr (ix2 n d) = Cert.Spec.lin l x agg Wl bl Wr n d := by
  unfold linArr Cert.Spec.lin
  rw [addf_apply, addf_apply, bB_apply]
  have e1 := StackMember.dotGeneral_plain_apply (m := 50000) (n := 128) (k := 128) (φ₁ := .f32) (φ₂ := .f32) none agg (wT l h3 Wl) n d
  have e2 := StackMember.dotGeneral_plain_apply (m := 50000) (n := 128) (k := 128) (φ₁ := .f32) (φ₂ := .f32) none x (wT l h3 Wr) n d
  simp only [wT_apply] at e1 e2
  exact congrArg₂ (· + ·) (congrArg (· + bl (ix2 l d)) e1) e2

def actArr (y : FVec Ideal S50000x128 .f32) : FVec Ideal S50000x128 .f32 :=
  select (cmpf .oge y (broadcastInDim S50000x128 ![] bcast_S_S50000x128 (constant S_ .f32 0x00000000#32))) y
    (mulf (broadcastInDim S50000x128 ![] bcast_S_S50000x128 (constant S_ .f32 0x3C23D70A#32)) y)

theorem actArr_apply (y : FVec Ideal S50000x128 .f32) (i : S50000x128.Idx) : actArr y i = Cert.Spec.act (y i) := rfl

def layerArr (l : Fin 4) (h3 : S4x128x128.Slices ![l.val, 0, 0] S1x128x128) (h4 : S4x128.Slices ![l.val, 0] S1x128)
    (x agg : Cert.Spec.SX.Idx → EReal) (Wl : Cert.Spec.SW.Idx → EReal) (bl : Cert.Spec.SB.Idx → EReal) (Wr : Cert.Spec.SW.Idx → EReal) :
    Cert.Spec.SX.Idx → EReal := actArr (linArr l h3 h4 x agg Wl bl Wr)

theorem layerArr_eq (l : Fin 4) (h3 : S4x128x128.Slices ![l.val, 0, 0] S1x128x128) (h4 : S4x128.Slices ![l.val, 0] S1x128)
    (x agg : Cert.Spec.SX.Idx → EReal) (Wl : Cert.Spec.SW.Idx → EReal) (bl : Cert.Spec.SB.Idx → EReal) (Wr : Cert.Spec.SW.Idx → EReal) :
    layerArr l h3 h4 x agg Wl bl Wr = Cert.Spec.layer l x agg Wl bl Wr := by
  refine Cert.Spec.ext2 fun n d => ?_
  unfold layerArr Cert.Spec.layer
  rw [actArr_apply, linArr_apply, Cert.Spec.mk2_ix2]

def layerResArr (l : Fin 4) (h3 : S4x128x128.Slices ![l.val, 0, 0] S1x128x128) (h4 : S4x128.Slices ![l.val, 0] S1x128)
    (x agg : Cert.Spec.SX.Idx → EReal) (Wl : Cert.Spec.SW.Idx → EReal) (bl : Cert.Spec.SB.Idx → EReal) (Wr : Cert.Spec.SW.Idx → EReal) :
    Cert.Spec.SX.Idx → EReal := addf (φ := .f32) x (actArr (linArr l h3 h4 x agg Wl bl Wr))

theorem layerResArr_eq (l : Fin 4) (h3 : S4x128x128.Slices ![l.val, 0, 0] S1x128x128) (h4 : S4x128.Slices ![l.val, 0] S1x128)
    (x agg : Cert.Spec.SX.Idx → EReal) (Wl : Cert.Spec.SW.Idx → EReal) (bl : Cert.Spec.SB.Idx → EReal) (Wr : Cert.Spec.SW.Idx → EReal) :
    layerResArr l h3 h4 x agg Wl bl Wr = Cert.Spec.layerRes l x agg Wl bl Wr := by
  refine Cert.Spec.ext2 fun n d => ?_
  unfold layerResArr Cert.Spec.layerRes
  rw [addf_apply, actArr_apply, linArr_apply, Cert.Spec.mk2_ix2]

theorem hostDivf_apply {s : Shape} {φ : FTy} (a b : FVec Ideal s φ) (i : s.Idx) : Host.divf a b i = Ideal.div (a i) (b i) := rfl

def srcv (A1 : (⟨S2x600000, .i32⟩ : BufTy).Contents (Elt Ideal)) : IVec S600000 32 :=
  shapeCast S600000 (extractStridedSlice S1x600000 ![0, 0] A1 slices_S2x600000_S1x600000_0_0) shapeCasts_S1x600000_S600000

def dstv (A1 : (⟨S2x600000, .i32⟩ : BufTy).Contents (Elt Ideal)) : IVec S600000 32 :=
  shapeCast S600000 (extractStridedSlice S1x600000 ![1, 0] A1 slices_S2x600000_S1x600000_1_0) shapeCasts_S1x600000_S600000

def SRg (sv dv : IVec S600000 32) (x : Cert.Spec.SX.Idx → EReal) : Cert.Spec.SX.Idx → EReal :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dv)
    (Host.gather gather_S50000x128_S600000x1_S600000x128_1_0_n_n_0_1_1128 x
      (broadcastInDim S600000x1 ![0] bcast_S600000_S600000x1_0
        (select (cmpi .slt sv (broadcastInDim S600000 ![] bcast_S_S600000 (constantI S_ 32 0#32)))
          (addi sv (broadcastInDim S600000 ![] bcast_S_S600000 (constantI S_ 32 50000#32))) sv)))

def CNTg (dv : IVec S600000 32) : Cert.Spec.SN.Idx → EReal :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 dv)
    (broadcastInDim S600000 ![] bcast_S_S600000 (constant (F := Ideal) S_ .f32 0x3F800000#32))

def SR (A1 : (⟨S2x600000, .i32⟩ : BufTy).Contents (Elt Ideal)) (x : Cert.Spec.SX.Idx → EReal) : Cert.Spec.SX.Idx → EReal :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstv A1))
    (Host.gather gather_S50000x128_S600000x1_S600000x128_1_0_n_n_0_1_1128 x
      (broadcastInDim S600000x1 ![0] bcast_S600000_S600000x1_0
        (select (cmpi .slt (srcv A1) (broadcastInDim S600000 ![] bcast_S_S600000 (constantI S_ 32 0#32)))
          (addi (srcv A1) (broadcastInDim S600000 ![] bcast_S_S600000 (constantI S_ 32 50000#32))) (srcv A1))))

def CNTR (A1 : (⟨S2x600000, .i32⟩ : BufTy).Contents (Elt Ideal)) : Cert.Spec.SN.Idx → EReal :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 (dstv A1))
    (broadcastInDim S600000 ![] bcast_S_S600000 (constant (F := Ideal) S_ .f32 0x3F800000#32))

theorem SR_eq (A1 : (⟨S2x600000, .i32⟩ : BufTy).Contents (Elt Ideal)) : SR A1 = SRg (srcv A1) (dstv A1) := rfl
theorem CNTR_eq (A1 : (⟨S2x600000, .i32⟩ : BufTy).Contents (Elt Ideal)) : CNTR A1 = CNTg (dstv A1) := rfl

def aggArr (sv dv : IVec S600000 32) (x : Cert.Spec.SX.Idx → EReal) : Cert.Spec.SX.Idx → EReal :=
  Host.divf (F := Ideal) (φ := .f32) (SRg sv dv x)
    (broadcastInDim S50000x128 ![0, 1] bcast_S50000x1_S50000x128_0_1
      (broadcastInDim S50000x1 ![0] bcast_S50000_S50000x1_0
        (maximumf (F := Ideal) (φ := .f32) (CNTg dv) (broadcastInDim S50000 ![] bcast_S_S50000 (constant (F := Ideal) S_ .f32 0x3F800000#32)))))

theorem aggArr_eq (sv dv : IVec S600000 32) (x : Cert.Spec.SX.Idx → EReal) :
    aggArr sv dv x = Cert.Spec.aggOf (SRg sv dv) (CNTg dv) x := by
  refine Cert.Spec.ext2 fun n k => ?_
  unfold aggArr Cert.Spec.aggOf
  rw [Cert.Spec.mk2_ix2]
  rw [hostDivf_apply]
  rw [broadcastInDim_apply _ _ _ (ix2 n k) (ix2 n (0 : Fin 1)) (fun a => match a with | ⟨0, _⟩ => rfl | ⟨1, _⟩ => rfl),
    broadcastInDim_apply _ _ _ (ix2 n (0 : Fin 1)) (ix1 n) (fun a => match a with | ⟨0, _⟩ => rfl)]
  rfl

def outArr (X : Cert.Spec.SX.Idx → EReal) (batch : Cert.Spec.SN.Idx → BitVec 32) : Cert.Spec.SP.Idx → EReal :=
  Host.divf (F := Ideal) (φ := .f32)
    (Host.scatterAdd (F := Ideal) scatter_S64x128_S50000x1_S50000x128_1_0_0_1
      (broadcastInDim S64x128 ![] bcast_S_S64x128 (constant (F := Ideal) S_ .f32 0x00000000#32))
      (broadcastInDim S50000x1 ![0] bcast_S50000_S50000x1_0 batch) X)
    (broadcastInDim S64x128 ![0, 1] bcast_S64x1_S64x128_0_1
      (broadcastInDim S64x1 ![0] bcast_S64_S64x1_0
        (maximumf (F := Ideal) (φ := .f32)
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S64 ![] bcast_S_S64 (constant (F := Ideal) S_ .f32 0x3F800000#32)))))

theorem outArr_eq (X : Cert.Spec.SX.Idx → EReal) (batch : Cert.Spec.SN.Idx → BitVec 32) :
    outArr X batch = Cert.Spec.out X batch := by
  refine Cert.Spec.ext2 fun g d => ?_
  unfold outArr Cert.Spec.out
  rw [Cert.Proof.ScatterRead.pool_scatter, Cert.Proof.ScatterRead.count_scatter, Cert.Spec.mk2_ix2]
  rw [hostDivf_apply]
  rw [broadcastInDim_apply _ _ _ (ix2 g d) (ix2 g (0 : Fin 1)) (fun a => match a with | ⟨0, _⟩ => rfl | ⟨1, _⟩ => rfl),
    broadcastInDim_apply _ _ _ (ix2 g (0 : Fin 1)) (ix1 g) (fun a => match a with | ⟨0, _⟩ => rfl)]
  rfl

end Cert.Proof.RefVal

end
-- ==== Proof.RefVal2.lean ====
import proofs.«405071_j1614907703383_1_alg».proof.Proof.RefVal1

noncomputable section

namespace Cert.Proof.RefVal

open Cert.ReferenceIdeal Cert.ReferenceIdeal.Gen Cert.ReferenceIdeal.ValueP Idealize.ShloMosaic Idealize.ShloMosaic.ValueIdx Idealize.ShloMosaic.StableHlo

/-- The `n` operations of @main from position `a`: the program is read in nine such stretches. -/
abbrev cut {F : FTy → Type} [FloatOps F] (a n : ℕ) : List (HloOp τ sig (Elt F)) := (ops.drop a).take n

set_option maxRecDepth 8192 in
theorem ops_eq {F : FTy → Type} [FloatOps F] : (ops : List (HloOp τ sig (Elt F))) = cut 0 29 ++ (cut 29 21 ++ (cut 50 25 ++ (cut 75 21 ++ (cut 96 25 ++ (cut 121 22 ++ (cut 143 25 ++ (cut 168 22 ++ cut 190 16))))))) := rfl

set_option maxRecDepth 8192 in
theorem rd0_v22 (W : Valuation τ sig (Elt Ideal)) : after (cut (F := Ideal) 0 29) W (Proc.devRef .tc main_v22) = aggArr (srcv (W (Proc.devRef .tc main_arg1))) (dstv (W (Proc.devRef .tc main_arg1))) (W (Proc.devRef .tc main_arg0)) := by
  simp only [cut, ops, List.drop_succ_cons, List.drop_zero, List.take_succ_cons, List.take_zero]
  after_results_simp
  rfl

set_option maxRecDepth 8192 in
theorem rd0_v1 (W : Valuation τ sig (Elt Ideal)) : after (cut (F := Ideal) 0 29) W (Proc.devRef .tc main_v1) = srcv (W (Proc.devRef .tc main_arg1)) := by
  simp only [cut, ops, List.drop_succ_cons, List.drop_zero, List.take_succ_cons, List.take_zero]
  after_results_simp
  rfl

set_option maxRecDepth 8192 in
theorem rd0_v3 (W : Valuation τ sig (Elt Ideal)) : after (cut (F := Ideal) 0 29) W (Proc.devRef .tc main_v3) = dstv (W (Proc.devRef .tc main_arg1)) := by
  simp only [cut, ops, List.drop_succ_cons, List.drop_zero, List.take_succ_cons, List.take_zero]
  after_results_simp
  rfl

set_option maxRecDepth 8192 in
theorem rd1 (W : Valuation τ sig (Elt Ideal)) : after (cut (F := Ideal) 29 21) W (Proc.devRef .tc main_v41) = layerArr 0 slices_S4x128x128_S1x128x128_0_0_0 slices_S4x128_S1x128_0_0 (W (Proc.devRef .tc main_arg0)) (W (Proc.devRef .tc main_v22)) (W (Proc.devRef .tc main_arg3)) (W (Proc.devRef .tc main_arg4)) (W (Proc.devRef .tc main_arg5)) := by
  simp only [cut, ops, List.drop_succ_cons, List.drop_zero, List.take_succ_cons, List.take_zero]
  after_results_simp
  rfl

set_option maxRecDepth 8192 in
theorem rd2 (W : Valuation τ sig (Elt Ideal)) : after (cut (F := Ideal) 50 25) W (Proc.devRef .tc main_v60) = aggArr (W (Proc.devRef .tc main_v1)) (W (Proc.devRef .tc main_v3)) (W (Proc.devRef .tc main_v41)) := by
  simp only [cut, ops, List.drop_succ_cons, List.drop_zero, List.take_succ_cons, List.take_zero]
  after_results_simp
  rfl

set_option maxRecDepth 8192 in
theorem rd3 (W : Valuation τ sig (Elt Ideal)) : after (cut (F := Ideal) 75 21) W (Proc.devRef .tc main_v79) = layerArr 1 slices_S4x128x128_S1x128x128_1_0_0 slices_S4x128_S1x128_1_0 (W (Proc.devRef .tc main_v41)) (W (Proc.devRef .tc main_v60)) (W (Proc.devRef .tc main_arg3)) (W (Proc.devRef .tc main_arg4)) (W (Proc.devRef .tc main_arg5)) := by
  simp only [cut, ops, List.drop_succ_cons, List.drop_zero, List.take_succ_cons, List.take_zero]
  after_results_simp
  rfl

set_option maxRecDepth 8192 in
theorem rd4 (W : Valuation τ sig (Elt Ideal)) : after (cut (F := Ideal) 96 25) W (Proc.devRef .tc main_v98) = aggArr (W (Proc.devRef .tc main_v1)) (W (Proc.devRef .tc main_v3)) (W (Proc.devRef .tc main_v79)) := by
  simp only [cut, ops, List.drop_succ_cons, List.drop_zero, List.take_succ_cons, List.take_zero]
  after_results_simp
  rfl

set_option maxRecDepth 8192 in
theorem rd5 (W : Valuation τ sig (Elt Ideal)) : after (cut (F := Ideal) 121 22) W (Proc.devRef .tc main_v118) = layerResArr 2 slices_S4x128x128_S1x128x128_2_0_0 slices_S4x128_S1x128_2_0 (W (Proc.devRef .tc main_v79)) (W (Proc.devRef .tc main_v98)) (W (Proc.devRef .tc main_arg3)) (W (Proc.devRef .tc main_arg4)) (W (Proc.devRef .tc main_arg5)) := by
  simp only [cut, ops, List.drop_succ_cons, List.drop_zero, List.take_succ_cons, List.take_zero]
  after_results_simp
  rfl

set_option maxRecDepth 8192 in
theorem rd6 (W : Valuation τ sig (Elt Ideal)) : after (cut (F := Ideal) 143 25) W (Proc.devRef .tc main_v137) = aggArr (W (Proc.devRef .tc main_v1)) (W (Proc.devRef .tc main_v3)) (W (Proc.devRef .tc main_v118)) := by
  simp only [cut, ops, List.drop_succ_cons, List.drop_zero, List.take_succ_cons, List.take_zero]
  after_results_simp
  rfl

set_option maxRecDepth 8192 in
theorem rd7 (W : Valuation τ sig (Elt Ideal)) : after (cut (F := Ideal) 168 22) W (Proc.devRef .tc main_v157) = layerResArr 3 slices_S4x128x128_S1x128x128_3_0_0 slices_S4x128_S1x128_3_0 (W (Proc.devRef .tc main_v118)) (W (Proc.devRef .tc main_v137)) (W (Proc.devRef .tc main_arg3)) (W (Proc.devRef .tc main_arg4)) (W (Proc.devRef .tc main_arg5)) := by
  simp only [cut, ops, List.drop_succ_cons, List.drop_zero, List.take_succ_cons, List.take_zero]
  after_results_simp
  rfl

set_option maxRecDepth 8192 in
theorem rd8 (W : Valuation τ sig (Elt Ideal)) : after (cut (F := Ideal) 190 16) W (Proc.devRef .tc main_v169) = outArr (W (Proc.devRef .tc main_v157)) (W (Proc.devRef .tc main_arg2)) := by
  simp only [cut, ops, List.drop_succ_cons, List.drop_zero, List.take_succ_cons, List.take_zero]
  after_results_simp
  rfl

/-- A stretch leaves the edge vectors, the graph ids, the weights and the biases. -/
def Keeps (l : List (HloOp τ sig (Elt Ideal))) (W : Valuation τ sig (Elt Ideal)) : Prop :=
  after l W (Proc.devRef .tc main_v1) = W (Proc.devRef .tc main_v1)
  ∧ after l W (Proc.devRef .tc main_v3) = W (Proc.devRef .tc main_v3)
  ∧ after l W (Proc.devRef .tc main_arg2) = W (Proc.devRef .tc main_arg2)
  ∧ after l W (Proc.devRef .tc main_arg3) = W (Proc.devRef .tc main_arg3)
  ∧ after l W (Proc.devRef .tc main_arg4) = W (Proc.devRef .tc main_arg4)
  ∧ after l W (Proc.devRef .tc main_arg5) = W (Proc.devRef .tc main_arg5)

set_option maxRecDepth 8192 in
theorem keeps1 (W : Valuation τ sig (Elt Ideal)) : Keeps (cut (F := Ideal) 29 21) W := by
  unfold Keeps
  simp only [cut, ops, List.drop_succ_cons, List.drop_zero, List.take_succ_cons, List.take_zero]
  refine ⟨?_, ?_, ?_, ?_, ?_, ?_⟩ <;> (after_results_simp <;> rfl)

set_option maxRecDepth 8192 in
theorem keeps2 (W : Valuation τ sig (Elt Ideal)) : Keeps (cut (F := Ideal) 50 25) W := by
  unfold Keeps
  simp only [cut, ops, List.drop_succ_cons, List.drop_zero, List.take_succ_cons, List.take_zero]
  refine ⟨?_, ?_, ?_, ?_, ?_, ?_⟩ <;> (after_results_simp <;> rfl)

set_option maxRecDepth 8192 in
theorem keeps3 (W : Valuation τ sig (Elt Ideal)) : Keeps (cut (F := Ideal) 75 21) W := by
  unfold Keeps
  simp only [cut, ops, List.drop_succ_cons, List.drop_zero, List.take_succ_cons, List.take_zero]
  refine ⟨?_, ?_, ?_, ?_, ?_, ?_⟩ <;> (after_results_simp <;> rfl)

set_option maxRecDepth 8192 in
theorem keeps4 (W : Valuation τ sig (Elt Ideal)) : Keeps (cut (F := Ideal) 96 25) W := by
  unfold Keeps
  simp only [cut, ops, List.drop_succ_cons, List.drop_zero, List.take_succ_cons, List.take_zero]
  refine ⟨?_, ?_, ?_, ?_, ?_, ?_⟩ <;> (after_results_simp <;> rfl)

set_option maxRecDepth 8192 in
theorem keeps5 (W : Valuation τ sig (Elt Ideal)) : Keeps (cut (F := Ideal) 121 22) W := by
  unfold Keeps
  simp only [cut, ops, List.drop_succ_cons, List.drop_zero, List.take_succ_cons, List.take_zero]
  refine ⟨?_, ?_, ?_, ?_, ?_, ?_⟩ <;> (after_results_simp <;> rfl)

set_option maxRecDepth 8192 in
theorem keeps6 (W : Valuation τ sig (Elt Ideal)) : Keeps (cut (F := Ideal) 143 25) W := by
  unfold Keeps
  simp only [cut, ops, List.drop_succ_cons, List.drop_zero, List.take_succ_cons, List.take_zero]
  refine ⟨?_, ?_, ?_, ?_, ?_, ?_⟩ <;> (after_results_simp <;> rfl)

set_option maxRecDepth 8192 in
theorem fr0_arg0 (W : Valuation τ sig (Elt Ideal)) : after (cut (F := Ideal) 0 29) W (Proc.devRef .tc main_arg0) = W (Proc.devRef .tc main_arg0) := by
  simp only [cut, ops, List.drop_succ_cons, List.drop_zero, List.take_succ_cons, List.take_zero]
  after_results_simp <;> rfl

set_option maxRecDepth 8192 in
theorem fr0_arg2 (W : Valuation τ sig (Elt Ideal)) : after (cut (F := Ideal) 0 29) W (Proc.devRef .tc main_arg2) = W (Proc.devRef .tc main_arg2) := by
  simp only [cut, ops, List.drop_succ_cons, List.drop_zero, List.take_succ_cons, List.take_zero]
  after_results_simp <;> rfl

set_option maxRecDepth 8192 in
theorem fr0_arg3 (W : Valuation τ sig (Elt Ideal)) : after (cut (F := Ideal) 0 29) W (Proc.devRef .tc main_arg3) = W (Proc.devRef .tc main_arg3) := by
  simp only [cut, ops, List.drop_succ_cons, List.drop_zero, List.take_succ_cons, List.take_zero]
  after_results_simp <;> rfl

set_option maxRecDepth 8192 in
theorem fr0_arg4 (W : Valuation τ sig (Elt Ideal)) : after (cut (F := Ideal) 0 29) W (Proc.devRef .tc main_arg4) = W (Proc.devRef .tc main_arg4) := by
  simp only [cut, ops, List.drop_succ_cons, List.drop_zero, List.take_succ_cons, List.take_zero]
  after_results_simp <;> rfl

set_option maxRecDepth 8192 in
theorem fr0_arg5 (W : Valuation τ sig (Elt Ideal)) : after (cut (F := Ideal) 0 29) W (Proc.devRef .tc main_arg5) = W (Proc.devRef .tc main_arg5) := by
  simp only [cut, ops, List.drop_succ_cons, List.drop_zero, List.take_succ_cons, List.take_zero]
  after_results_simp <;> rfl

set_option maxRecDepth 8192 in
theorem fr2_v41 (W : Valuation τ sig (Elt Ideal)) : after (cut (F := Ideal) 50 25) W (Proc.devRef .tc main_v41) = W (Proc.devRef .tc main_v41) := by
  simp only [cut, ops, List.drop_succ_cons, List.drop_zero, List.take_succ_cons, List.take_zero]
  after_results_simp <;> rfl

set_option maxRecDepth 8192 in
theorem fr4_v79 (W : Valuation τ sig (Elt Ideal)) : after (cut (F := Ideal) 96 25) W (Proc.devRef .tc main_v79) = W (Proc.devRef .tc main_v79) := by
  simp only [cut, ops, List.drop_succ_cons, List.drop_zero, List.take_succ_cons, List.take_zero]
  after_results_simp <;> rfl

set_option maxRecDepth 8192 in
theorem fr6_v118 (W : Valuation τ sig (Elt Ideal)) : after (cut (F := Ideal) 143 25) W (Proc.devRef .tc main_v118) = W (Proc.devRef .tc main_v118) := by
  simp only [cut, ops, List.drop_succ_cons, List.drop_zero, List.take_succ_cons, List.take_zero]
  after_results_simp <;> rfl

set_option maxRecDepth 8192 in
theorem fr7_arg2 (W : Valuation τ sig (Elt Ideal)) : after (cut (F := Ideal) 168 22) W (Proc.devRef .tc main_arg2) = W (Proc.devRef .tc main_arg2) := by
  simp only [cut, ops, List.drop_succ_cons, List.drop_zero, List.take_succ_cons, List.take_zero]
  after_results_simp <;> rfl

structure Base (W : Valuation τ sig (Elt Ideal)) (A1 : (⟨S2x600000, .i32⟩ : BufTy).Contents (Elt Ideal)) (A2 : Cert.Spec.SN.Idx → BitVec 32) (Wl : Cert.Spec.SW.Idx → EReal)
    (bl : Cert.Spec.SB.Idx → EReal) (Wr : Cert.Spec.SW.Idx → EReal) : Prop where
  v1 : W (Proc.devRef .tc main_v1) = srcv A1
  v3 : W (Proc.devRef .tc main_v3) = dstv A1
  a2 : W (Proc.devRef .tc main_arg2) = A2
  a3 : W (Proc.devRef .tc main_arg3) = Wl
  a4 : W (Proc.devRef .tc main_arg4) = bl
  a5 : W (Proc.devRef .tc main_arg5) = Wr

theorem st0 (W : Valuation τ sig (Elt Ideal)) :
    Base (after (cut (F := Ideal) 0 29) W) (W (Proc.devRef .tc main_arg1)) (W (Proc.devRef .tc main_arg2)) (W (Proc.devRef .tc main_arg3)) (W (Proc.devRef .tc main_arg4)) (W (Proc.devRef .tc main_arg5))
      ∧ after (cut (F := Ideal) 0 29) W (Proc.devRef .tc main_arg0) = W (Proc.devRef .tc main_arg0)
      ∧ after (cut (F := Ideal) 0 29) W (Proc.devRef .tc main_v22) = Cert.Spec.aggOf (SR (W (Proc.devRef .tc main_arg1))) (CNTR (W (Proc.devRef .tc main_arg1))) (W (Proc.devRef .tc main_arg0)) :=
  ⟨⟨rd0_v1 W, rd0_v3 W, fr0_arg2 W, fr0_arg3 W, fr0_arg4 W, fr0_arg5 W⟩, fr0_arg0 W, by rw [rd0_v22, aggArr_eq]; rfl⟩

variable {W : Valuation τ sig (Elt Ideal)} {A1 : (⟨S2x600000, .i32⟩ : BufTy).Contents (Elt Ideal)} {A2 : Cert.Spec.SN.Idx → BitVec 32}
  {Wl : Cert.Spec.SW.Idx → EReal} {bl : Cert.Spec.SB.Idx → EReal} {Wr : Cert.Spec.SW.Idx → EReal}

theorem Base.keep (hB : Base W A1 A2 Wl bl Wr) {l : List (HloOp τ sig (Elt Ideal))} (hk : Keeps l W) : Base (after l W) A1 A2 Wl bl Wr :=
  ⟨hk.1.trans hB.v1, hk.2.1.trans hB.v3, hk.2.2.1.trans hB.a2, hk.2.2.2.1.trans hB.a3, hk.2.2.2.2.1.trans hB.a4, hk.2.2.2.2.2.trans hB.a5⟩

theorem st1 (hB : Base W A1 A2 Wl bl Wr) {x G : Cert.Spec.SX.Idx → EReal} (hx : W (Proc.devRef .tc main_arg0) = x) (hG : W (Proc.devRef .tc main_v22) = G) :
    Base (after (cut (F := Ideal) 29 21) W) A1 A2 Wl bl Wr ∧ after (cut (F := Ideal) 29 21) W (Proc.devRef .tc main_v41) = Cert.Spec.layer 0 x G Wl bl Wr :=
  ⟨hB.keep (keeps1 W), by rw [rd1, layerArr_eq, hx, hG, hB.a3, hB.a4, hB.a5]⟩

theorem st3 (hB : Base W A1 A2 Wl bl Wr) {x G : Cert.Spec.SX.Idx → EReal} (hx : W (Proc.devRef .tc main_v41) = x) (hG : W (Proc.devRef .tc main_v60) = G) :
    Base (after (cut (F := Ideal) 75 21) W) A1 A2 Wl bl Wr ∧ after (cut (F := Ideal) 75 21) W (Proc.devRef .tc main_v79) = Cert.Spec.layer 1 x G Wl bl Wr :=
  ⟨hB.keep (keeps3 W), by rw [rd3, layerArr_eq, hx, hG, hB.a3, hB.a4, hB.a5]⟩

theorem st5 (hB : Base W A1 A2 Wl bl Wr) {x G : Cert.Spec.SX.Idx → EReal} (hx : W (Proc.devRef .tc main_v79) = x) (hG : W (Proc.devRef .tc main_v98) = G) :
    Base (after (cut (F := Ideal) 121 22) W) A1 A2 Wl bl Wr ∧ after (cut (F := Ideal) 121 22) W (Proc.devRef .tc main_v118) = Cert.Spec.layerRes 2 x G Wl bl Wr :=
  ⟨hB.keep (keeps5 W), by rw [rd5, layerResArr_eq, hx, hG, hB.a3, hB.a4, hB.a5]⟩

theorem st7 (hB : Base W A1 A2 Wl bl Wr) {x G : Cert.Spec.SX.Idx → EReal} (hx : W (Proc.devRef .tc main_v118) = x) (hG : W (Proc.devRef .tc main_v137) = G) :
    after (cut (F := Ideal) 168 22) W (Proc.devRef .tc main_arg2) = A2 ∧ after (cut (F := Ideal) 168 22) W (Proc.devRef .tc main_v157) = Cert.Spec.layerRes 3 x G Wl bl Wr :=
  ⟨(fr7_arg2 W).trans hB.a2, by rw [rd7, layerResArr_eq, hx, hG, hB.a3, hB.a4, hB.a5]⟩

theorem st2 (hB : Base W A1 A2 Wl bl Wr) {X : Cert.Spec.SX.Idx → EReal} (hx : W (Proc.devRef .tc main_v41) = X) :
    Base (after (cut (F := Ideal) 50 25) W) A1 A2 Wl bl Wr ∧ after (cut (F := Ideal) 50 25) W (Proc.devRef .tc main_v41) = X ∧ after (cut (F := Ideal) 50 25) W (Proc.devRef .tc main_v60) = Cert.Spec.aggOf (SR A1) (CNTR A1) X :=
  ⟨hB.keep (keeps2 W), (fr2_v41 W).trans hx, by rw [rd2, aggArr_eq, hB.v1, hB.v3, hx]; rfl⟩

theorem st4 (hB : Base W A1 A2 Wl bl Wr) {X : Cert.Spec.SX.Idx → EReal} (hx : W (Proc.devRef .tc main_v79) = X) :
    Base (after (cut (F := Ideal) 96 25) W) A1 A2 Wl bl Wr ∧ after (cut (F := Ideal) 96 25) W (Proc.devRef .tc main_v79) = X ∧ after (cut (F := Ideal) 96 25) W (Proc.devRef .tc main_v98) = Cert.Spec.aggOf (SR A1) (CNTR A1) X :=
  ⟨hB.keep (keeps4 W), (fr4_v79 W).trans hx, by rw [rd4, aggArr_eq, hB.v1, hB.v3, hx]; rfl⟩

theorem st6 (hB : Base W A1 A2 Wl bl Wr) {X : Cert.Spec.SX.Idx → EReal} (hx : W (Proc.devRef .tc main_v118) = X) :
    Base (after (cut (F := Ideal) 143 25) W) A1 A2 Wl bl Wr ∧ after (cut (F := Ideal) 143 25) W (Proc.devRef .tc main_v118) = X ∧ after (cut (F := Ideal) 143 25) W (Proc.devRef .tc main_v137) = Cert.Spec.aggOf (SR A1) (CNTR A1) X :=
  ⟨hB.keep (keeps6 W), (fr6_v118 W).trans hx, by rw [rd6, aggArr_eq, hB.v1, hB.v3, hx]; rfl⟩

/-- Walking the nine stretches in order carries the node rows through the four layers to the pooled mean. -/
theorem ref_value (m : (ℓ : Loc nD τ sig) → Buf (Elt Ideal) ℓ) (d : Dev nD) :
    after (ops (F := Ideal)) (launchContents m d) (Proc.devRef .tc main_v169)
      = Cert.Spec.out (Cert.Spec.net (SR (m ((d.tc : Thread nD τ).loc main_arg1))) (CNTR (m ((d.tc : Thread nD τ).loc main_arg1))) (m ((d.tc : Thread nD τ).loc main_arg0)) (m ((d.tc : Thread nD τ).loc main_arg3)) (m ((d.tc : Thread nD τ).loc main_arg4)) (m ((d.tc : Thread nD τ).loc main_arg5))) (m ((d.tc : Thread nD τ).loc main_arg2)) := by
  rw [ops_eq]
  simp only [after_append]
  obtain ⟨b0, x0, g0⟩ := st0 (launchContents m d)
  obtain ⟨b1, x1⟩ := st1 b0 x0 g0
  obtain ⟨b2, x1', g1⟩ := st2 b1 x1
  obtain ⟨b3, x2⟩ := st3 b2 x1' g1
  obtain ⟨b4, x2', g2⟩ := st4 b3 x2
  obtain ⟨b5, x3⟩ := st5 b4 x2' g2
  obtain ⟨b6, x3', g3⟩ := st6 b5 x3
  obtain ⟨a2, x4⟩ := st7 b6 x3' g3
  rw [rd8, x4, a2, outArr_eq]
  rfl

end Cert.Proof.RefVal

end
-- ==== Proof.BridgeS.lean ====
import proofs.«405071_j1614907703383_1_alg».proof.Proof.KiHostDefs
import proofs.«405071_j1614907703383_1_alg».proof.Proof.RefVal1
import Idealize.ShloMosaic.Lib.StableHlo.Run

noncomputable section

namespace Cert.Proof.BridgeS

open Idealize.ShloMosaic Idealize.ShloMosaic.TcCoe Idealize.ShloMosaic.StableHlo
open Cert.KernelIdeal Cert.KernelIdeal.Gen

variable (m : (ℓ : Loc nD τ sig) → Buf (Elt Ideal) ℓ)

theorem srcB_eq (c : Dev nD) :
    Cert.KernelIdeal.Hand.srcB m c = Cert.Proof.RefVal.srcv (m ((c : Thread nD τ).loc main_arg1)) := by
  show StableHlo.after hostOps0 (V0 m c) (Proc.devRef .tc main_v1) = _
  after_results
  rfl

theorem dstB_eq (c : Dev nD) :
    Cert.KernelIdeal.Hand.dstB m c = Cert.Proof.RefVal.dstv (m ((c : Thread nD τ).loc main_arg1)) := by
  show StableHlo.after hostOps0 (V0 m c) (Proc.devRef .tc main_v3) = _
  after_results
  rfl

theorem SK_eq (c : Dev nD) :
    Cert.KernelIdeal.Hand.SK m c = Cert.Proof.RefVal.SR (m ((c : Thread nD τ).loc main_arg1)) := by
  funext x
  unfold Cert.KernelIdeal.Hand.SK Cert.Proof.RefVal.SR
  rw [srcB_eq, dstB_eq]
  rfl

theorem CNTK_eq (c : Dev nD) :
    Cert.KernelIdeal.Hand.CNTK m c = Cert.Proof.RefVal.CNTR (m ((c : Thread nD τ).loc main_arg1)) := by
  unfold Cert.KernelIdeal.Hand.CNTK Cert.Proof.RefVal.CNTR
  rw [dstB_eq]
  rfl

end Cert.Proof.BridgeS

end
-- ==== Proof.Bridge.lean ====
import proofs.«405071_j1614907703383_1_alg».proof.Defs
import proofs.«405071_j1614907703383_1_alg».proof.Proof.Gen.KernelIdeal
import proofs.«405071_j1614907703383_1_alg».proof.Proof.Gen.ReferenceIdeal
import proofs.«405071_j1614907703383_1_alg».proof.Proof.Gen.Pre_finite_inputs
import proofs.«405071_j1614907703383_1_alg».proof.Proof.KiRun
import proofs.«405071_j1614907703383_1_alg».proof.Proof.KiValue
import proofs.«405071_j1614907703383_1_alg».proof.Proof.RefRunRes
import proofs.«405071_j1614907703383_1_alg».proof.Proof.RefVal2
import proofs.«405071_j1614907703383_1_alg».proof.Proof.BridgeS

noncomputable section

namespace Cert.Proof.Bridge

open Idealize.ShloMosaic Idealize.ShloMosaic.TcCoe Idealize.SL.Sem

theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Hand.B11 m c Cert.KernelIdeal.main_v109,
    Cert.KernelIdeal.Hand.run_res (F := Ideal) m ρ, ?_⟩
  refine (θ_run (Cert.ReferenceIdeal.defs (F := Ideal)) _ _).mono (fun r h c => ⟨?_, (h c).2⟩)
    (Cert.ReferenceIdeal.ValueP.run_res (F := Ideal) m' ρ')
  obtain ⟨h0, h1, h2, h3, h4, h5⟩ := hagree c
  rw [(h c).1, Cert.Proof.RefVal.ref_value m' c, h0, h1, h2, h3, h4, h5]
  exact ((Cert.KernelIdeal.Hand.kernel_value m c).trans
    (by rw [Cert.Proof.BridgeS.SK_eq m c, Cert.Proof.BridgeS.CNTK_eq m c])).symm

end Cert.Proof.Bridge

end
-- ==== Proof.lean ====
import proofs.«405071_j1614907703383_1_alg».proof.Defs
import proofs.«405071_j1614907703383_1_alg».proof.Proof.Gen.Kernel
import proofs.«405071_j1614907703383_1_alg».proof.Proof.Gen.KernelIdeal
import proofs.«405071_j1614907703383_1_alg».proof.Proof.Gen.ReferenceIdeal
import proofs.«405071_j1614907703383_1_alg».proof.Proof.Gen.Pre_finite_inputs
import proofs.«405071_j1614907703383_1_alg».proof.Proof.KbRun
import proofs.«405071_j1614907703383_1_alg».proof.Proof.KiRun
import proofs.«405071_j1614907703383_1_alg».proof.Proof.RefFrame
import proofs.«405071_j1614907703383_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Proof.RefFrame.frame_ri,
    trivial,
    Cert.Proof.Bridge.algebraic⟩

end Cert.Proof

end
